-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S50257x1x1024 : Shape := ⟨3, ![50257, 1, 1024]⟩
abbrev S1x512 : Shape := ⟨2, ![1, 512]⟩
abbrev S1x1024 : Shape := ⟨2, ![1, 1024]⟩
abbrev S1x3072 : Shape := ⟨2, ![1, 3072]⟩
abbrev S1x50257 : Shape := ⟨2, ![1, 50257]⟩
abbrev S1x2048 : Shape := ⟨2, ![1, 2048]⟩
abbrev S1x1 : Shape := ⟨2, ![1, 1]⟩
abbrev S1024x1024 : Shape := ⟨2, ![1024, 1024]⟩
abbrev S4096x1024 : Shape := ⟨2, ![4096, 1024]⟩
abbrev S1x4096 : Shape := ⟨2, ![1, 4096]⟩

abbrev nBuf : Space → Nat
  | .hbm => 67
  | .vmem => 30
  | .smem => 1
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S50257x1x1024, .f32⟩
  | .hbm, ⟨22, _⟩ => ⟨S1x512, .f32⟩
  | .hbm, ⟨23, _⟩ => ⟨S1x1024, .f32⟩
  | .hbm, ⟨24, _⟩ => ⟨S1x3072, .f32⟩
  | .hbm, ⟨25, _⟩ => ⟨S1x3072, .f32⟩
  | .hbm, ⟨26, _⟩ => ⟨S1x50257, .f32⟩
  | .hbm, ⟨27, _⟩ => ⟨S1x1024, .f32⟩
  | .hbm, ⟨28, _⟩ => ⟨S1x1024, .f32⟩
  | .hbm, ⟨29, _⟩ => ⟨S1x512, .f32⟩
  | .hbm, ⟨30, _⟩ => ⟨S1x3072, .f32⟩
  | .hbm, ⟨31, _⟩ => ⟨S1x3072, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1x1024, .f32⟩
  | .hbm, ⟨66, _⟩ => ⟨S1x50257, .f32⟩
  | .local _ .vmem, ⟨0, _⟩ => ⟨S1x1x1024, .f32⟩
  | .local _ .vmem, ⟨1, _⟩ => ⟨S1x1x1024, .f32⟩
  | .local _ .vmem, ⟨2, _⟩ => ⟨S512x1024, .f32⟩
  | .local _ .vmem, ⟨3, _⟩ => ⟨S512x2048, .f32⟩
  | .local _ .vmem, ⟨4, _⟩ => ⟨S1x512, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4096x1024, .f32⟩
  | .local _ .vmem, ⟨25, _⟩ => ⟨S4096x1024, .f32⟩
  | .local _ .vmem, ⟨26, _⟩ => ⟨S1x4096, .f32⟩
  | .local _ .vmem, ⟨27, _⟩ => ⟨S1x4096, .f32⟩
  | .local _ .vmem, ⟨28, _⟩ => ⟨S1x4096, .f32⟩
  | .local _ .vmem, ⟨29, _⟩ => ⟨S1x4096, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v9_0 : Ref sig .tc := ⟨.hbm, 30, rfl⟩
abbrev main_v9_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  shapeCasts_S50257x1024_S50257x1x1024 : S50257x1024.ShapeCasts S50257x1x1024
  shapeCasts_S512_S1x512 : S512.ShapeCasts S1x512
  shapeCasts_S1024_S1x1024 : S1024.ShapeCasts S1x1024
  shapeCasts_S3072_S1x3072 : S3072.ShapeCasts S1x3072
  shapeCasts_S50257_S1x50257 : S50257.ShapeCasts S1x50257
  shapeCasts_S1x1x1024_S1x1024 : S1x1x1024.ShapeCasts S1x1024
  inb_S1_S1_0 : ∀ a, (![0] : Fin 1 → Nat) a + S1.size a ≤ S1.size a
  numel1_S1 : S1.numel = 1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  concatenates_S1x1024_S1x1024_S1x2048_d1 : Shape.Concatenates [S1x1024, S1x1024] S1x2048 1
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  shapeCasts_S1x1024_S1x1x1024 : S1x1024.ShapeCasts S1x1x1024
  inb_S4096x1024_S4096x1024_0_0 : ∀ a, (![0, 0] : Fin 2 → Nat) a + S4096x1024.size a ≤ S4096x1024.size a
  h_S4096x1024 : 0 < S4096x1024.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  dot_S1x2048_S512x2048_S1x512_1_1_0_0_n_n_wf : DotDims.WF S1x2048 S512x2048 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S1024x1024_S1x1024_1_1_0_0_n_n_wf : DotDims.WF S1x1024 S1024x1024 S1x1024 [1] [1] [0] [0] [] []
  dot_S1x1024_S4096x1024_S1x4096_1_1_0_0_n_n_wf : DotDims.WF S1x1024 S4096x1024 S1x4096 [1] [1] [0] [0] [] []
  hrank0 : 0 < grid0.rank
  hstage0_0 : ∀ j, (stage0_0 j).IsWhole
  nbuf0_0 : grid0.bufCount reads0_0 true = 1
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S1x1x1024.size a
  hwx0_1 : ∀ i : grid0.Coords, EltTy.bits .f32 = 32 ∨ (Rect.block (s := S1x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S3072x1024.size a
  hwx1_2 : ∀ i : grid1.Coords, EltTy.bits .f32 = 32 ∨ (Rect.block (s := S3072x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S3072x1024.size a
  hwx1_3 : ∀ i : grid1.Coords, EltTy.bits .f32 = 32 ∨ (Rect.block (s := S3072x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x3072.size a
  hwx1_4 : ∀ i : grid1.Coords, EltTy.bits .f32 = 32 ∨ (Rect.block (s := S1x3072) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x3072.size a
  hwx1_5 : ∀ i : grid1.Coords, EltTy.bits .f32 = 32 ∨ (Rect.block (s := S1x3072) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x3072.size a
  hwx1_6 : ∀ i : grid1.Coords, EltTy.bits .f32 = 32 ∨ (Rect.block (s := S1x3072) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x3072.size a
  hwx1_7 : ∀ i : grid1.Coords, EltTy.bits .f32 = 32 ∨ (Rect.block (s := S1x3072) S1x1024.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S4096x1024.size a < S50257x1024.size a
  hwx2_1 : ∀ i : grid2.Coords, EltTy.bits .f32 = 32 ∨ (Rect.unit (s := S50257x1024) (fun a => cc2_transform_1 i a * S4096x1024.size a) (fun a => (Pipeline.Clip.of (cc2_transform_1 i a) (S4096x1024.size a) (S50257x1024.size a)).extent (S4096x1024.size a)) fun a => Pipeline.Clip.inb (Pipeline.Clip.ok_of (hstart2_1 i a))).WholeWords (EltTy.packing .f32)
  hwxs2_1 : ∀ i : grid2.Coords, EltTy.bits .f32 = 32 ∨ (Rect.unit (s := S4096x1024) (fun _ => 0) (fun a => (Pipeline.Clip.of (cc2_transform_1 i a) (S4096x1024.size a) (S50257x1024.size a)).extent (S4096x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x4096.size a < S1x50257.size a
  hwx2_2 : ∀ i : grid2.Coords, EltTy.bits .f32 = 32 ∨ (Rect.unit (s := S1x50257) (fun a => cc2_transform_2 i a * S1x4096.size a) (fun a => (Pipeline.Clip.of (cc2_transform_2 i a) (S1x4096.size a) (S1x50257.size a)).extent (S1x4096.size a)) fun a => Pipeline.Clip.inb (Pipeline.Clip.ok_of (hstart2_2 i a))).WholeWords (EltTy.packing .f32)
  hwxs2_2 : ∀ i : grid2.Coords, EltTy.bits .f32 = 32 ∨ (Rect.unit (s := S1x4096) (fun _ => 0) (fun a => (Pipeline.Clip.of (cc2_transform_2 i a) (S1x4096.size a) (S1x50257.size a)).extent (S1x4096.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x4096.size a < S1x50257.size a
  hwx2_3 : ∀ i : grid2.Coords, EltTy.bits .f32 = 32 ∨ (Rect.unit (s := S1x50257) (fun a => cc2_transform_3 i a * S1x4096.size a) (fun a => (Pipeline.Clip.of (cc2_transform_3 i a) (S1x4096.size a) (S1x50257.size a)).extent (S1x4096.size a)) fun a => Pipeline.Clip.inb (Pipeline.Clip.ok_of (hstart2_3 i a))).WholeWords (EltTy.packing .f32)
  hwxs2_3 : ∀ i : grid2.Coords, EltTy.bits .f32 = 32 ∨ (Rect.unit (s := S1x4096) (fun _ => 0) (fun a => (Pipeline.Clip.of (cc2_transform_3 i a) (S1x4096.size a) (S1x50257.size a)).extent (S1x4096.size a)) fun a => (Nat.zero_add _).trans_le (Pipeline.Clip.extent_le (Pipeline.Clip.ok_of (hstart2_3 i a)))).WholeWords (EltTy.packing .f32)

variable [Facts₀]

def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev spec0_0 : Pipeline.WinSpec sig grid0.rank :=
  Pipeline.WinSpec.ofSpec (Memref.whole main_v1) S1x1x1024.size reads0_0 false true 1 stage0_0 sem0_0 nbuf0_0 hstage0_0

abbrev spec0_1 : Pipeline.WinSpec sig grid0.rank :=
  Pipeline.WinSpec.ofSpec (Memref.whole main_arg1) S1x1x1024.size reads0_1 false true 1 stage0_1 sem0_1 nbuf0_1 hstage0_1

abbrev spec0_2 : Pipeline.WinSpec sig grid0.rank :=
  Pipeline.WinSpec.ofSpec (Memref.whole main_arg2) S512x1024.size reads0_2 false true 1 stage0_2 sem0_2 nbuf0_2 hstage0_2

abbrev spec0_3 : Pipeline.WinSpec sig grid0.rank :=
  Pipeline.WinSpec.ofSpec (Memref.whole main_arg4) S512x2048.size reads0_3 false true 1 stage0_3 sem0_3 nbuf0_3 hstage0_3

abbrev spec0_4 : Pipeline.WinSpec sig grid0.rank :=
  Pipeline.WinSpec.ofSpec (Memref.whole main_v2) S1x512.size reads0_4 false true 1 stage0_4 sem0_4 nbuf0_4 hstage0_4

abbrev spec0_5 : Pipeline.WinSpec sig grid0.rank :=
  Pipeline.WinSpec.ofSpec (Memref.whole main_arg6) S1024x2048.size reads0_5 false true 1 stage0_5 sem0_5 nbuf0_5 hstage0_5

abbrev spec0_6 : Pipeline.WinSpec sig grid0.rank :=
  Pipeline.WinSpec.ofSpec (Memref.whole main_v3) S1x1024.size reads0_6 false true 1 stage0_6 sem0_6 nbuf0_6 hstage0_6

abbrev spec0_7 : Pipeline.WinSpec sig grid0.rank :=
  Pipeline.WinSpec.ofSpec (Memref.whole main_v8_0) S1x1024.size reads0_7 true true 1 stage0_7 sem0_7 nbuf0_7 hstage0_7

abbrev spec0_8 : Pipeline.WinSpec sig grid0.rank :=
  Pipeline.WinSpec.ofSpec (Memref.whole main_v8_1) S1x512.size reads0_8 true true 1 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 inb_S1_S1_0 numel1_S1 pf | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1x1x1024.size a ≤ S50257x1x1024.size a), EltTy.bits .f32 = 32 ∨ (Rect.block (s := S50257x1x1024) S1x1x1024.size (cc0_transform_0 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))
abbrev win1_0 : Pipeline.Window sig grid1 :=
  Pipeline.Window.ofSpec (Memref.whole main_v8_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_0) S1x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v9_1) S1x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S4096x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v6) S1x4096.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v39) S1x4096.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  harr0 : ∀ w, (spec0 w).arr.IsWhole

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 98
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x512, .f32⟩
  | .hbm, ⟨42, _⟩ => ⟨S1x512, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Reg0.lean ====
import proofs.«415979_j2018634629437_3_alg».proof.Proof.Gen.Kernel.Launch
import proofs.«415979_j2018634629437_3_alg».proof.Proof.Gen.Kernel.Skeleton
import proofs.«415979_j2018634629437_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (a0 : (pcfg0 (F := F)).Adm) (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

abbrev rRow3 : Rect S1x1x1024 := Rect.unit (s := S1x1x1024) ![0, 0, 0] S1x1x1024.size inb_S1x1x1024_S1x1x1024_0_0_0
abbrev rEnc : Rect S512x1024 := Rect.unit (s := S512x1024) ![0, 0] S512x1024.size inb_S512x1024_S512x1024_0_0
abbrev rAw : Rect S512x2048 := Rect.unit (s := S512x2048) ![0, 0] S512x2048.size inb_S512x2048_S512x2048_0_0
abbrev rAb : Rect S1x512 := Rect.unit (s := S1x512) ![0, 0] S1x512.size inb_S1x512_S1x512_0_0
abbrev rCw : Rect S1024x2048 := Rect.unit (s := S1024x2048) ![0, 0] S1024x2048.size inb_S1024x2048_S1024x2048_0_0
abbrev rRow : Rect S1x1024 := Rect.unit (s := S1x1024) ![0, 0] S1x1024.size inb_S1x1024_S1x1024_0_0

def out0_7 (x0 x1 : Vec F S1x1x1024 .f32) (x2 : Vec F S512x1024 .f32) (x3 : Vec F S512x2048 .f32) (x4 : Vec F S1x512 .f32)
    (x5 : Vec F S1024x2048 .f32) (x6 : Vec F S1x1024 .f32) : Vec F S1x1024 .f32 :=
  View.canon [⟨rRow, k0_pay3 (View.ld x0 rRow3) (View.ld x1 rRow3) (View.ld x3 rAw) (View.ld x4 rAb) (View.ld x2 rEnc) (View.ld x5 rCw) (View.ld x6 rRow)⟩]

def out0_8 (x0 x1 : Vec F S1x1x1024 .f32) (x3 : Vec F S512x2048 .f32) (x4 : Vec F S1x512 .f32) : Vec F S1x512 .f32 :=
  View.canon [⟨rAb, k0_pay2 (View.ld x0 rRow3) (View.ld x1 rRow3) (View.ld x3 rAw) (View.ld x4 rAb)⟩]

theorem cover0_7 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y
theorem cover0_8 (p0 : Vec F S1x512 .f32) (y : S1x512.Idx) :
    ∃ pc ∈ ([⟨rAb, p0⟩] : List (View.Piece (Elt F) S1x512 .f32)), y ∈ pc.1.set :=
  View.cover_of_tiled [⟨rAb, p0⟩] S1x512.size (by rfl) y

set_option maxHeartbeats 4000000 in

theorem sound_kernel0 (c : Dev nD) (E : Set ℕ) (i : grid0.Coords) (arg1 : Memref sig .tc .smem S1 .i32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S1024x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512 .f32) (harg10 : arg10.IsWhole)
    (x0 : Vec F S1x1x1024 .f32) (x1 : Vec F S1x1x1024 .f32) (x2 : Vec F S512x1024 .f32) (x3 : Vec F S512x2048 .f32) (x4 : Vec F S1x512 .f32) (x5 : Vec F S1024x2048 .f32) (x6 : Vec F S1x1024 .f32) (d7 o7 : Vec F S1x1024 .f32) (d8 o8 : Vec F S1x512 .f32)
    (h7 : o7 = out0_7 x0 x1 x2 x3 x4 x5 x6) (h8 : o8 = out0_8 x0 x1 x3 x4) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare d7 ∗ owns (c : Thread nD τ) arg10 fullShare d8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare o7 ∗ owns (c : Thread nD τ) arg10 fullShare o8) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9 arg10 harg10) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, -, H8⟩, Hk⟩
  subst hf0 hf1 hf2 hf3 hf4 hf5 hf6 h7 h8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

def dat0 (a0 : (pcfg0 (F := F)).Adm) (c : Dev nD) : Dat τ (Elt F) Unit ℕ (UR sig nD τ) ℕ (cfg0 a0) c where
  A w := V c (Pipeline.arrRef spec0 w)
  after w t := match w with
    | ⟨0, _⟩ => iblk0 V a0 c 0 t
    | ⟨1, _⟩ => iblk0 V a0 c 1 t
    | ⟨2, _⟩ => iblk0 V a0 c 2 t
    | ⟨3, _⟩ => iblk0 V a0 c 3 t
    | ⟨4, _⟩ => iblk0 V a0 c 4 t
    | ⟨5, _⟩ => iblk0 V a0 c 5 t
    | ⟨6, _⟩ => iblk0 V a0 c 6 t
    | ⟨7, _⟩ => out0_7 (iblk0 V a0 c 0 t) (iblk0 V a0 c 1 t) (iblk0 V a0 c 2 t) (iblk0 V a0 c 3 t) (iblk0 V a0 c 4 t) (iblk0 V a0 c 5 t) (iblk0 V a0 c 6 t)
    | ⟨8, _⟩ => out0_8 (iblk0 V a0 c 0 t) (iblk0 V a0 c 1 t) (iblk0 V a0 c 3 t) (iblk0 V a0 c 4 t)
  Φ _ := iprop(Pipeline.ΦA spec0 c ∗ Pipeline.prefHeld (Ix := Unit) (Name := ℕ) (U := UR sig nD τ) (Lvl := ℕ) pre0 c (fun _ => fullShare) a0.1)
  q _ := fullShare
  owed _ := 0

theorem A_eq0 (a0 : (pcfg0 (F := F)).Adm) (c : Dev nD) (w : Fin (cfg0 a0).W) : (dat0 V a0 c).A w = V c (Pipeline.arrRef spec0 w) := by
  dsimp only [dat0]

theorem after0_7 (a0 : (pcfg0 (F := F)).Adm) (c : Dev nD) (t : Fin (cfg0 a0).N) : (dat0 V a0 c).after 7 t = out0_7 (iblk0 V a0 c 0 t) (iblk0 V a0 c 1 t) (iblk0 V a0 c 2 t) (iblk0 V a0 c 3 t) (iblk0 V a0 c 4 t) (iblk0 V a0 c 5 t) (iblk0 V a0 c 6 t) := by dsimp only [dat0]; try rfl
theorem after0_8 (a0 : (pcfg0 (F := F)).Adm) (c : Dev nD) (t : Fin (cfg0 a0).N) : (dat0 V a0 c).after 8 t = out0_8 (iblk0 V a0 c 0 t) (iblk0 V a0 c 1 t) (iblk0 V a0 c 3 t) (iblk0 V a0 c 4 t) := by dsimp only [dat0]; try rfl

theorem before0 (a0 : (pcfg0 (F := F)).Adm) (c : Dev nD) (t : Fin (cfg0 a0).N) (w : Fin 9) (h : ((cfg0 a0).win w).isOut = false) (d) :
    (dat0 V a0 c).before w t d = (dat0 V a0 c).after w t :=
  match w, h, d with
  | ⟨0, _⟩, h, d | ⟨1, _⟩, h, d | ⟨2, _⟩, h, d | ⟨3, _⟩, h, d | ⟨4, _⟩, h, d | ⟨5, _⟩, h, d | ⟨6, _⟩, h, d =>
    ((dat0 V a0 c).before_in_eq_fetched _ h (fun _ => rfl) (fun _ _ _ => rfl) (fun _ => rfl) t d).trans rfl
  | ⟨7, _⟩, h, _ | ⟨8, _⟩, h, _ => (Bool.false_ne_true h.symm).elim

theorem sound_body0 (a0 : (pcfg0 (F := F)).Adm) (c : Dev nD) (t : Fin (cfg0 a0).N) :
    iprop((dat0 V a0 c).Φ t.castSucc ∗ (dat0 V a0 c).owesAt () t.castSucc
      ∗ bigSep Finset.univ fun w => iprop(∃ d, owns (c : Thread nD τ) (((cfg0 a0).win w).stage ((cfg0 a0).slots t w)) fullShare ((dat0 V a0 c).before w t d)))
    ⊢ wp frame (wpE (defs₀ (F := F)) Variants.none c none) Set.univ (defs₀ .tc (cfg0 a0).body ((cfg0 a0).bodyArgs t ((cfg0 a0).slots t))) fun _ =>
      iprop((dat0 V a0 c).Φ t.succ ∗ (dat0 V a0 c).owesAt () t.succ
        ∗ bigSep Finset.univ fun w => owns (c : Thread nD τ) (((cfg0 a0).win w).stage ((cfg0 a0).slots t w)) fullShare ((dat0 V a0 c).after w t)) := by
  rw [bigSep_W0, bigSep_W0]
  simp only [before0 V a0 c t 0 rfl, before0 V a0 c t 1 rfl, before0 V a0 c t 2 rfl, before0 V a0 c t 3 rfl, before0 V a0 c t 4 rfl, before0 V a0 c t 5 rfl, before0 V a0 c t 6 rfl]
  rw [show (dat0 V a0 c).Φ t.succ = (dat0 V a0 c).Φ t.castSucc from rfl,
    show (dat0 V a0 c).owesAt () t.succ = (dat0 V a0 c).owesAt () t.castSucc from rfl]
  iintro ⟨HΦ, Ho, ⟨%_, H0⟩, ⟨%_, H1⟩, ⟨%_, H2⟩, ⟨%_, H3⟩, ⟨%_, H4⟩, ⟨%_, H5⟩, ⟨%_, H6⟩, ⟨%d7, H7⟩, ⟨%d8, H8⟩⟩
  sl_whnfR [defs₀, Defs.onTc]
  iapply sound_kernel0 (h7 := after0_7 V a0 c t) (h8 := after0_8 V a0 c t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iframe HΦ Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (a0 : (pcfg0 (F := F)).Adm) (c : Dev nD) : BodyObligation (dat0 (F := F) V a0 c) (defs₀ (F := F)) Variants.none () Set.univ :=
  sound_body0 V a0 c

end Cert.Kernel.Hand

end
-- ==== Proof.K.Reg1.lean ====
import proofs.«415979_j2018634629437_3_alg».proof.Proof.Gen.Kernel.Launch
import proofs.«415979_j2018634629437_3_alg».proof.Proof.Gen.Kernel.Skeleton
import proofs.«415979_j2018634629437_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin (cfg1).W) (t : Fin (cfg1).N) : (((cfg1).win w).xblock ((cfg1).grid.coords t)).Idx → Elt F ((cfg1).win w).elt :=
  (((cfg1).win w).blk t).view.read (Elt F) (V c (Pipeline.arrRef spec1 w))

abbrev r1_a : Rect S1x1024 := Rect.unit (s := S1x1024) ![0, 0] S1x1024.size inb_S1x1024_S1x1024_0_0

abbrev r1_b : Rect S1024x1024 := Rect.unit (s := S1024x1024) ![0, 0] S1024x1024.size inb_S1024x1024_S1024x1024_0_0

def out1_6 (x0 : Vec F S1x1024 .f32) (x2 : Vec F S1024x1024 .f32) (x4 : Vec F S1x1024 .f32) : Vec F S1x1024 .f32 :=
  View.canon [⟨r1_a, k1_pay1 (View.ld x0 r1_a) (View.ld x2 r1_b) (View.ld x4 r1_a)⟩]

def out1_7 (x1 : Vec F S1x1024 .f32) (x3 : Vec F S1024x1024 .f32) (x5 : Vec F S1x1024 .f32) : Vec F S1x1024 .f32 :=
  View.canon [⟨r1_a, k1_pay2 (View.ld x1 r1_a) (View.ld x3 r1_b) (View.ld x5 r1_a)⟩]

def dat1 (c : Dev nD) : Dat τ (Elt F) Unit ℕ (UR sig nD τ) ℕ (cfg1) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin (cfg1).W) : (dat1 V c).A w = V c (Pipeline.arrRef spec1 w) := by
  dsimp only [dat1]

theorem after1_6 (c : Dev nD) (t : Fin cfg1.N) :
    (dat1 V c).after 6 t = out1_6 (iblk1 V c 0 t) (iblk1 V c 2 t) (iblk1 V c 4 t) := by dsimp only [dat1]
theorem after1_7 (c : Dev nD) (t : Fin cfg1.N) :
    (dat1 V c).after 7 t = out1_7 (iblk1 V c 1 t) (iblk1 V c 3 t) (iblk1 V c 5 t) := by dsimp only [dat1]

theorem before1 (c : Dev nD) (t : Fin cfg1.N) (w : Fin cfg1.W) (h : (cfg1.win w).isOut = false) (d) :
    (dat1 V c).before w t d = (dat1 V c).after w t :=
  match w, h, d with
  | ⟨0, _⟩, h, d | ⟨1, _⟩, h, d | ⟨2, _⟩, h, d | ⟨3, _⟩, h, d | ⟨4, _⟩, h, d | ⟨5, _⟩, h, d =>
    ((dat1 V c).before_in_eq_fetched _ h (fun _ => rfl) (fun _ _ _ => rfl) (fun _ => rfl) t d).trans rfl
  | ⟨6, _⟩, h, _ | ⟨7, _⟩, h, _ => (Bool.false_ne_true h.symm).elim

theorem cover1_a (p0 : Vec F S1x1024 .f32) (y : S1x1024.Idx) :
    ∃ pc ∈ ([⟨r1_a, p0⟩] : List (View.Piece (Elt F) S1x1024 .f32)), y ∈ pc.1.set :=
  View.cover_of_tiled [⟨r1_a, p0⟩] S1x1024.size (by rfl) y

set_option maxHeartbeats 1000000 in

theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (x0 : Vec F S1x1024 .f32) (x1 : Vec F S1x1024 .f32) (x2 : Vec F S1024x1024 .f32) (x3 : Vec F S1024x1024 .f32)
    (x4 : Vec F S1x1024 .f32) (x5 : Vec F S1x1024 .f32) (d6 d7 o6 o7 : Vec F S1x1024 .f32) (h6 : o6 = out1_6 x0 x2 x4) (h7 : o7 = out1_7 x1 x3 x5) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare d6 ∗ owns (c : Thread nD τ) arg8 fullShare d7
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare o6 ∗ owns (c : Thread nD τ) arg8 fullShare o7) -∗ K ⟨⟩))
      ⊢ wp frame (wpE (defs₀ (F := F)) Variants.none c none) E (cc1__gru_gate_kernel i arg1 harg1 arg2 harg2 arg3 harg3 arg4 harg4 arg5 harg5 arg6 harg6 arg7 harg7 arg8 harg8) K := by
  simp only [cc1__gru_gate_kernel_eq_skeleton]; unfold cc1__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, Hk⟩
  subst hf0 hf1 hf2 hf3 hf4 hf5 h6 h7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_a _)
  iexists _; isplitr
  swap; · iexact H7
  ipureintro
  exact View.read_writes_eq_canon _ _ _ (cover1_a _)

theorem sound_body1 (c : Dev nD) (t : Fin cfg1.N) :
    iprop((dat1 V c).Φ t.castSucc ∗ (dat1 V c).owesAt () t.castSucc
      ∗ bigSep Finset.univ fun w => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ
        ∗ bigSep Finset.univ fun w => owns (c : Thread nD τ) ((cfg1.win w).stage (cfg1.slots t w)) fullShare ((dat1 V c).after w t)) := by
  rw [bigSep_W1, bigSep_W1]
  simp only [before1 V c t 0 rfl, before1 V c t 1 rfl, before1 V c t 2 rfl, before1 V c t 3 rfl, before1 V c t 4 rfl, before1 V c t 5 rfl]
  rw [show (dat1 V c).Φ t.succ = (dat1 V c).Φ t.castSucc from rfl,
    show (dat1 V c).owesAt () t.succ = (dat1 V c).owesAt () t.castSucc from rfl]
  iintro ⟨HΦ, Ho, ⟨%_, H0⟩, ⟨%_, H1⟩, ⟨%_, H2⟩, ⟨%_, H3⟩, ⟨%_, H4⟩, ⟨%_, H5⟩, ⟨%d6, H6⟩, ⟨%d7, H7⟩⟩
  iapply sound_kernel1 c Set.univ (grid1.coords t) (st1_0 t) _ (st1_1 t) _ (st1_2 t) _ (st1_3 t) _ (st1_4 t) _ (st1_5 t) _ (st1_6 t) _ (st1_7 t) _
    ((dat1 V c).after 0 t) ((dat1 V c).after 1 t) ((dat1 V c).after 2 t) ((dat1 V c).after 3 t) ((dat1 V c).after 4 t) ((dat1 V c).after 5 t)
    ((dat1 V c).before 6 t d6) ((dat1 V c).before 7 t d7) _ _ (after1_6 V c t) (after1_7 V c t)
  iframe H0 H1 H2 H3 H4 H5 H6 H7
  iintro ⟨H0, H1, H2, H3, H4, H5, H6, H7⟩
  iframe

theorem body_obligation1 (c : Dev nD) : BodyObligation (dat1 (F := F) V c) (defs₀ (F := F)) Variants.none () Set.univ :=
  sound_body1 V c

end Cert.Kernel.Hand

end
-- ==== Proof.K.Reg2.lean ====
import proofs.«415979_j2018634629437_3_alg».proof.Proof.Gen.Kernel.Launch
import proofs.«415979_j2018634629437_3_alg».proof.Proof.Gen.Kernel.Skeleton
import proofs.«415979_j2018634629437_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin (cfg2).W) (t : Fin (cfg2).N) : (((cfg2).win w).xblock ((cfg2).grid.coords t)).Idx → Elt F ((cfg2).win w).elt :=
  (((cfg2).win w).blk t).view.read (Elt F) (V c (Pipeline.arrRef spec2 w))

abbrev pad2 : Elt F .f32 := Scalar.ofBits .f32 0#32

def wblk2 (c : Dev nD) (t : Fin cfg2.N) : Vec F S4096x1024 .f32 :=
  win2_1.fill (grid2.coords t) (fun _ => pad2) (iblk2 V c 1 t)

def bblk2 (c : Dev nD) (t : Fin cfg2.N) : Vec F S1x4096 .f32 :=
  win2_2.fill (grid2.coords t) (fun _ => pad2) (iblk2 V c 2 t)

abbrev r2_2 : Rect S1x4096 := Rect.unit (s := S1x4096) ![0, 0] S1x4096.size inb_S1x4096_S1x4096_0_0

theorem off2_zero : (![0, 0] : Fin 2 → Nat) = fun _ => 0 := funext fun a => by fin_cases a <;> rfl

def out2_3 (x0 : Vec F S1x1024 .f32) (x1 : Vec F S4096x1024 .f32) (x2 : Vec F S1x4096 .f32) : Vec F S1x4096 .f32 :=
  k2_pay1 x0 x1 x2

theorem cover2_3 (p0 : Vec F S1x4096 .f32) (y : S1x4096.Idx) :
    ∃ pc ∈ ([⟨r2_2, p0⟩] : List (View.Piece (Elt F) S1x4096 .f32)), y ∈ pc.1.set :=
  View.cover_of_tiled [⟨r2_2, p0⟩] S1x4096.size (by rfl) y

set_option maxHeartbeats 1000000 in

theorem sound_kernel2 (c : Dev nD) (E : Set ℕ) (i : grid2.Coords)
    (arg1 : Memref sig .tc .vmem S1x1024 .f32) (harg1 : arg1.IsWhole)
    (arg2 : Memref sig .tc .vmem S4096x1024 .f32) (harg2 : arg2.IsWhole)
    (arg3 : Memref sig .tc .vmem S1x4096 .f32) (harg3 : arg3.IsWhole)
    (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 _), View.canon_unit_zero off2_zero]
  simp only [View.readAt_eq_ld, View.ld_unit_zero (S := S1x1024) off2_zero, View.ld_unit_zero (S := S4096x1024) off2_zero,
    View.ld_unit_zero (S := S1x4096) off2_zero]
  rfl

def dat2 (c : Dev nD) : Dat τ (Elt F) Unit ℕ (UR sig nD τ) ℕ (cfg2) c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin (cfg2).W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = out2_3 (iblk2 V c 0 t) (wblk2 V c t) (bblk2 V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

theorem before2_1 (c : Dev nD) (t : Fin cfg2.N) (d) :
    (dat2 V c).before 1 t d = win2_1.fill (grid2.coords t) d (iblk2 V c 1 t) :=
  (dat2 V c).before_fetched 1 t (fetch2_1 t) d

theorem before2_2 (c : Dev nD) (t : Fin cfg2.N) (d) :
    (dat2 V c).before 2 t d = win2_2.fill (grid2.coords t) d (iblk2 V c 2 t) :=
  (dat2 V c).before_fetched 2 t (fetch2_2 t) d

theorem before2_3 (c : Dev nD) (t : Fin cfg2.N) (d) : (dat2 V c).before 3 t d = d :=
  (dat2 V c).before_out_reset 3 rfl t ((em (t.val = 0)).imp_right fun h => ⟨h, flush2_3 _⟩) d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyLeft2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ ∃ d1 d2, owns (c : Thread nD τ) (st2_1 t) fullShare (win2_1.fill (grid2.coords t) d1 (iblk2 V c 1 t))
        ∗ owns (c : Thread nD τ) (st2_2 t) fullShare (win2_2.fill (grid2.coords t) d2 (iblk2 V c 2 t))
        ∗ owns (c : Thread nD τ) (st2_3 t) fullShare
            (out2_3 (iblk2 V c 0 t) (win2_1.fill (grid2.coords t) d1 (iblk2 V c 1 t)) (win2_2.fill (grid2.coords t) d2 (iblk2 V c 2 t))))

theorem sound_body2 (c : Dev nD) (t : Fin cfg2.N) :
    bodyPre2 V c t ⊢ wp frame (wpE (defs₀ (F := F)) Variants.none c none) Set.univ (bodyAt2 t) (fun _ => bodyLeft2 V c t) := by
  unfold bodyPre2 bodyLeft2 bodyAt2
  simp only [before2_0, before2_1, before2_2, before2_3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t)
    (win2_1.fill (grid2.coords t) d1 (iblk2 V c 1 t)) (win2_2.fill (grid2.coords t) d2 (iblk2 V c 2 t)) _)
  iframe H0 H1 H2
  isplitl [H3]; · iexists _; iexact H3
  iintro ⟨H0, H1, H2, H3⟩
  iframe HΦ Ho H0
  iexists d1, d2
  iframe

end Cert.Kernel.Hand

end
-- ==== Proof.K.Segs.lean ====
import proofs.«415979_j2018634629437_3_alg».proof.Proof.K.Reg0
import proofs.«415979_j2018634629437_3_alg».proof.Proof.K.Reg1
import proofs.«415979_j2018634629437_3_alg».proof.Proof.K.Reg2
import proofs.«415979_j2018634629437_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

def tbl : pre0.Contents (Elt F) := fun k => V3 m (0 : Fin 1) (pre0.ref k)

theorem tbl_eq (c : Dev nD) (k : Fin pre0.K) : V3 m c (pre0.ref k) = tbl m k := by
  obtain rfl : c = (0 : Fin 1) := Subsingleton.elim _ _
  rfl

variable (hok : ok0 (tbl m))

def adm0 : (pcfg0 (F := F)).Adm := ⟨tbl m, hok⟩
def adm : (p : Fin 3) → (pcfgs (F := F) p).Adm
  | ⟨0, _⟩ => adm0 m hok
  | ⟨1, _⟩ => cfg1.toPCfg_adm
  | ⟨2, _⟩ => cfg2.toPCfg_adm

def W4 (c : Dev nD) : Valuation τ sig (Elt F) :=
  Pipeline.withArrays spec0 c (W3 m c) fun w => (dat0 (V3 m) (adm0 m hok) c).arrAt w (cfg0 (adm0 m hok)).N
abbrev V4 : (c : Dev nD) → (b : Ref sig .tc) → Buf (Elt F) ((c : Thread nD τ).loc b) := fun c b => W4 m hok c b

def W5 (c : Dev nD) : Valuation τ sig (Elt F) :=
  Pipeline.withArrays spec1 c (W4 m hok c) fun w => (dat1 (V4 m hok) c).arrAt w cfg1.N
abbrev V5 : (c : Dev nD) → (b : Ref sig .tc) → Buf (Elt F) ((c : Thread nD τ).loc b) := fun c b => W5 m hok c b

abbrev W6 : Dev nD → Valuation τ sig (Elt F) := fun c => StableHlo.after hostOps2 (W5 m hok c)
abbrev V6 : (c : Dev nD) → (b : Ref sig .tc) → Buf (Elt F) ((c : Thread nD τ).loc b) := fun c b => W6 m hok c b

theorem W4_arr (c : Dev nD) (w : Fin 9) :
    W4 m hok c (Proc.devRef .tc (Pipeline.arrRef spec0 w)) = (dat0 (V3 m) (adm0 m hok) c).arrAt w (cfg0 (adm0 m hok)).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m hok c (Proc.devRef .tc b) = W3 m c (Proc.devRef .tc b) := by
  unfold W4; exact Pipeline.withArrays_of_ne spec0 c _ _ b hb
theorem W5_arr (c : Dev nD) (w : Fin 8) :
    W5 m hok c (Proc.devRef .tc (Pipeline.arrRef spec1 w)) = (dat1 (V4 m hok) c).arrAt w cfg1.N := by
  unfold W5; exact Pipeline.withArrays_arr spec1 (launch1 (F := F)).win.arr_inj c _ _ w
theorem W5_of_ne (c : Dev nD) (b : Ref sig .tc) (hb : ∀ w, Pipeline.arrRef spec1 w ≠ b) :
    W5 m hok c (Proc.devRef .tc b) = W4 m hok c (Proc.devRef .tc b) := by
  unfold W5; exact Pipeline.withArrays_of_ne spec1 c _ _ b hb
def pdats : (p : Fin 3) → (c : Dev nD) → Dat τ (Elt F) Unit ℕ (UR sig nD τ) ℕ (Pipeline.pin (pcfgs (F := F)) (adm m hok) p) c
  | ⟨0, _⟩ => fun c => dat0 (V3 m) (adm0 m hok) c
  | ⟨1, _⟩ => fun c => dat1 (V4 m hok) c
  | ⟨2, _⟩ => fun c => dat2 (V6 m hok) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 1600000 in
set_option backward.isDefEq.respectTransparency.types false in

def reg0 : Pipeline.RegionSeg (pcfgs (F := F)) (adm m hok) (pdats m hok) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m) (adm0 m hok) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m hok c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m))
  Z c := Pipeline.unscopedRestP (Ix := Unit) (Name := ℕ) (U := UR sig nD τ) (Lvl := ℕ) pre0 spec0 c (V3 m c)
  hentry c := by
    rw [Pipeline.ownSems0_none]
    have hsplit := Pipeline.arrays_of_unscopedBufs (p := 0) (pcfgs (F := F)) (adm m hok) (pdats m hok) (launch0 (F := F)).win (launch0 (F := F)).arr_whole c
      ((pdats m hok 0 c).share_full fun _ => rfl) (V3 m c) fun _ => rfl
    rw [Pipeline.unscopedBufs_held, Pipeline.unscopedRest_split (launch0 (F := F)).pre c (V3 m c)] at hsplit
    iintro ⟨⟨Hub, Hp, HO⟩, -, -⟩
    ihave H := hsplit $$ Hub
    icases H with ⟨Ha, ⟨Hpf, Hrest⟩⟩
    imodintro
    isplitl [Ha]; · iexact Ha
    isplitl [Hpf]
    · rw [show (fun k => V3 m c ((pcfgs (F := F) 0).pre.ref k)) = (adm m hok 0).1 from funext (tbl_eq m c)]; iexact Hpf
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m hok 0 c).Φ 0 = iprop(Pipeline.ΦA spec0 c ∗ Pipeline.prefHeld (Ix := Unit) (Name := ℕ) (U := UR sig nD τ) (Lvl := ℕ) pre0 c (fun _ => fullShare) (tbl m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m hok 0 c).Φ (Fin.last _) = iprop(Pipeline.ΦA spec0 c ∗ Pipeline.prefHeld (Ix := Unit) (Name := ℕ) (U := UR sig nD τ) (Lvl := ℕ) pre0 c (fun _ => fullShare) (tbl m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm m hok) (Ix := Unit) (Name := ℕ) (U := UR sig nD τ) (Lvl := ℕ)
      (launch0 (F := F)).win (launch0 (F := F)).arr_whole c (pdats m hok) ((pdats m hok 0 c).share_full fun _ => rfl)
      (V3 m c) (V4 m hok c) ((pdats m hok 0 c).arrAt · (cfg0 (adm0 m hok)).N) (fun w => (W4_arr m hok c w).symm)
      (fun b hb => W4_of_ne m hok c b fun w e => hb (Finset.mem_image.mpr ⟨w, Finset.mem_univ _, e⟩))
    rw [Pipeline.unscopedBufs_held, Pipeline.unscopedRest_split (launch0 (F := F)).pre c (V3 m c),
      show (fun k => V3 m c ((pcfgs (F := F) 0).pre.ref k)) = tbl m from funext (tbl_eq m c)] at hjoin
    iintro ⟨Ha, HO, HY, Hrest⟩
    icases HY with ⟨HY, Hpf⟩
    imodintro
    isplitl [Ha Hrest Hpf]
    · iapply hjoin; isplitl [Ha]; · iexact Ha
      iframe
    isplitl [HY]; · iexact HY
    unfold Pipeline.Dat.owesAt Pipeline.owesWithin
    icases HO with ⟨%W, -, HO⟩; iexists W; iexact HO

set_option maxHeartbeats 1600000 in
set_option backward.isDefEq.respectTransparency.types false in

def reg1 : Pipeline.RegionSeg (pcfgs (F := F)) (adm m hok) (pdats m hok) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V4 m hok) c).loose
  hwaits := Pipeline.hwaits_of_owed_zero _ _ _ _ L lv 1 fun _ _ => rfl
  pre c := iprop(StableHlo.held (c : Thread nD τ) (Pipeline.ucRefs τ sig) (W4 m hok c) ∗ R c)
  post c := iprop(StableHlo.held (c : Thread nD τ) (Pipeline.ucRefs τ sig) (W5 m hok c) ∗ R c)
  X c := iprop(∃ r, prngReg c r)
  Y c := iprop(∃ r, prngReg c r)
  Z c := Pipeline.unscopedRest (Ix := Unit) (Name := ℕ) (U := UR sig nD τ) (Lvl := ℕ) spec1 c (V4 m hok c)
  hentry c := by
    rw [Pipeline.ownSems0_none]
    have hsplit := Pipeline.arrays_of_unscopedBufs (p := 1) (pcfgs (F := F)) (adm m hok) (pdats m hok) (launch1 (F := F)).win (launch1 (F := F)).arr_whole c
      ((pdats m hok 1 c).share_full fun _ => rfl) (V4 m hok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m hok 1 c).Φ 0 = Pipeline.ΦA spec1 c from rfl]; unfold Pipeline.ΦA
    iintro ⟨Hp, -, Hr⟩
    iframe
  hout c := by
    rw [Pipeline.ownSems0_none, show (pdats m hok 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hok) (Ix := Unit) (Name := ℕ) (U := UR sig nD τ) (Lvl := ℕ)
      (launch1 (F := F)).win (launch1 (F := F)).arr_whole c (pdats m hok) ((pdats m hok 1 c).share_full fun _ => rfl)
      (V4 m hok c) (V5 m hok c) ((pdats m hok 1 c).arrAt · cfg1.N) (fun w => (W5_arr m hok c w).symm)
      (fun b hb => W5_of_ne m hok c b fun w e => hb (Finset.mem_image.mpr ⟨w, Finset.mem_univ _, e⟩))
    rw [Pipeline.unscopedBufs_held] at hjoin
    iintro ⟨Ha, HO, HY, Hrest⟩

    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Keep.lean ====
import proofs.«415979_j2018634629437_3_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (hok : ok0 (tbl m))

theorem W1_keep (c : Dev nD) (b : Ref sig .tc) (hb : b ∉ hostOps0_W) :
    W1 m c (Proc.devRef .tc b) = W0 m c (Proc.devRef .tc b) :=
  StableHlo.after_of_writes_sub hostOps0 _ hostOps0_writes hb
theorem W2_keep (c : Dev nD) (b : Ref sig .tc) (hb : b ∉ hostOps0_1_W) :
    W2 m c (Proc.devRef .tc b) = W1 m c (Proc.devRef .tc b) :=
  StableHlo.after_of_writes_sub hostOps0_1 _ hostOps0_1_writes hb
theorem W3_keep (c : Dev nD) (b : Ref sig .tc) (hb : b ∉ hostOps0_2_W) :
    W3 m c (Proc.devRef .tc b) = W2 m c (Proc.devRef .tc b) :=
  StableHlo.after_of_writes_sub hostOps0_2 _ hostOps0_2_writes hb
theorem W6_keep (c : Dev nD) (b : Ref sig .tc) (hb : b ∉ hostOps2_W) :
    W6 m hok c (Proc.devRef .tc b) = W5 m hok c (Proc.devRef .tc b) :=
  StableHlo.after_of_writes_sub hostOps2 _ hostOps2_writes hb

theorem out0_mem : ∀ w : Fin 9, (spec0 w).isOut = true →
    Pipeline.arrRef spec0 w ∈ ([main_v8_0, main_v8_1] : List (Ref sig .tc)) := by decide

theorem out1_mem : ∀ w : Fin 8, (spec1 w).isOut = true →
    Pipeline.arrRef spec1 w ∈ ([main_v9_0, main_v9_1] : List (Ref sig .tc)) := by decide

theorem W4_keep (c : Dev nD) (b : Ref sig .tc) (hb : b ∉ ([main_v8_0, main_v8_1] : List (Ref sig .tc))) :
    W4 m hok c (Proc.devRef .tc b) = W3 m c (Proc.devRef .tc b) := by
  by_cases h : ∃ w, Pipeline.arrRef spec0 w = b
  · obtain ⟨w, rfl⟩ := h
    have hin : ((cfg0 (adm0 m hok)).win w).isOut = false := by
      cases ho : ((cfg0 (adm0 m hok)).win w).isOut
      · rfl
      · exact absurd (out0_mem w ho) hb
    exact (W4_arr m hok c w).trans
      (((dat0 (V3 m) (adm0 m hok) c).arrAt_in w hin _).trans (A_eq0 (V3 m) (adm0 m hok) c w))
  · exact W4_of_ne m hok c b fun w e => h ⟨w, e⟩

theorem W5_keep (c : Dev nD) (b : Ref sig .tc) (hb : b ∉ ([main_v9_0, main_v9_1] : List (Ref sig .tc))) :
    W5 m hok c (Proc.devRef .tc b) = W4 m hok c (Proc.devRef .tc b) := by
  by_cases h : ∃ w, Pipeline.arrRef spec1 w = b
  · obtain ⟨w, rfl⟩ := h
    have hin : (cfg1.win w).isOut = false := by
      cases ho : (cfg1.win w).isOut
      · rfl
      · exact absurd (out1_mem w ho) hb
    exact (W5_arr m hok c w).trans (((dat1 (V4 m hok) c).arrAt_in w hin _).trans (A_eq1 (V4 m hok) c w))
  · exact W5_of_ne m hok c b fun w e => h ⟨w, e⟩

abbrev args : List (Ref sig .tc) :=
  [main_arg0, main_arg1, main_arg2, main_arg3, main_arg4, main_arg5, main_arg6, main_arg7, main_arg8, main_arg9,
    main_arg10, main_arg11, main_arg12, main_arg13]

-- No argument is private to a region, written by a host stretch, or an output array of a region.
theorem args_off : ∀ b ∈ args, ¬ (Proc.devRef .tc b : DevRef τ sig).isScoped ∧ b ∉ hostOps0_W ∧ b ∉ hostOps0_1_W
    ∧ b ∉ hostOps0_2_W ∧ b ∉ ([main_v8_0, main_v8_1] : List (Ref sig .tc)) ∧ b ∉ ([main_v9_0, main_v9_1] : List (Ref sig .tc))
    ∧ b ∉ hostOps2_W ∧ b ∉ ([main_v39] : List (Ref sig .tc))
    ∧ (Proc.devRef .tc b : DevRef τ sig) ≠ Proc.devRef .tc main_v39 := by decide

-- So an argument still holds its launch contents when the last region is entered.
theorem W6_launch (c : Dev nD) (b : Ref sig .tc) (hb : b ∈ args) :
    W6 m hok c (Proc.devRef .tc b) = m ((c : Thread nD τ).loc b) :=
  have ⟨_, h1, h2, h3, h4, h5, h6, _, _⟩ := args_off b hb
  (W6_keep m hok c b h6).trans <| (W5_keep m hok c b h5).trans <| (W4_keep m hok c b h4).trans <|
    (W3_keep m c b h3).trans <| (W2_keep m c b h2).trans <| (W1_keep m c b h1).trans rfl

end Cert.Kernel.Hand

end
-- ==== Proof.K.Reg2F.lean ====
import proofs.«415979_j2018634629437_3_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev fgt2 : Fin cfg2.W → Bool := fun | 0 => false | 1 => false | 2 => false | 3 => true | ⟨_ + 4, h⟩ => absurd h (Nat.not_lt.2 (Nat.le_add_left _ _))

def bodyPre2F (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

def bodyPost2F (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ X, owns (c : Thread nD τ) (st2_3 t) fullShare X))

theorem pre2F_pre2 (c : Dev nD) (t : Fin cfg2.N) : bodyPre2F V c t ⊢ bodyPre2 V c t := by
  unfold bodyPre2F bodyPre2
  iintro ⟨HΦ, Ho, H0, H1, H2, ⟨%X, H3⟩⟩
  isplitl [HΦ]; · iexact HΦ
  iframe Ho H0 H1 H2
  iexists X; rw [before2_3]; iexact H3

theorem left_post2F (c : Dev nD) (t : Fin cfg2.N) : bodyLeft2 V c t ⊢ bodyPost2F V c t := by
  unfold bodyLeft2 bodyPost2F
  rw [after2_0, after2_1, after2_2]
  iintro ⟨HΦ, Ho, H0, ⟨%d1, %d2, H1, H2, H3⟩⟩
  isplitl [HΦ]; · iexact HΦ
  iframe Ho H0
  isplitl [H1]
  · iexists d1
    unfold wblk2; rw [win2_1.cut_fill]; iexact H1
  isplitl [H2]
  · iexists d2
    unfold bblk2; rw [win2_2.cut_fill]; iexact H2
  · iexists _; iexact H3

theorem body_obligation2_forget (c : Dev nD) :
    BodyObligationLoose (dat2 (F := F) V c) (defs₀ (F := F)) Variants.none () Set.univ fgt2 := fun t => by
  rw [bigSep_W2, bigSep_W2]
  exact (pre2F_pre2 V c t).trans ((sound_body2 V c t).trans (wp_mono _ _ _ fun _ => left_post2F V c t))

end Cert.Kernel.Hand

end
-- ==== Proof.K.RunR.lean ====
import proofs.«415979_j2018634629437_3_alg».proof.Proof.K.Segs
import proofs.«415979_j2018634629437_3_alg».proof.Proof.K.Reg2F

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (hok : ok0 (tbl m))

def rdats : (p : Fin 3) → (c : Dev nD) → RDat τ (Elt F) Unit ℕ (UR sig nD τ) ℕ (Pipeline.pin (pcfgs (F := F)) (adm m hok) p) c
  | ⟨0, _⟩ => fun c => (dat0 (V3 m) (adm0 m hok) c).toR
  | ⟨1, _⟩ => fun c => (dat1 (V4 m hok) c).toR
  | ⟨2, _⟩ => fun c => (dat2 (V6 m hok) c).toRForget fgt2

def W7A (c : Dev nD) (A : (w : Fin 4) → Buf (Elt F) ((spec2 w).arr.view.loc (c : Thread nD τ))) :
    Valuation τ sig (Elt F) :=
  Pipeline.withArrays spec2 c (W6 m hok c) A
abbrev V7A (c : Dev nD) (A : (w : Fin 4) → Buf (Elt F) ((spec2 w).arr.view.loc (c : Thread nD τ))) :
    (b : Ref sig .tc) → Buf (Elt F) ((c : Thread nD τ).loc b) := fun b => W7A m hok c A b

theorem W7A_arr (c : Dev nD) (A : (w : Fin 4) → Buf (Elt F) ((spec2 w).arr.view.loc (c : Thread nD τ))) (w : Fin 4) :
    W7A m hok c A (Proc.devRef .tc (Pipeline.arrRef spec2 w)) = A w := by
  unfold W7A; exact Pipeline.withArrays_arr spec2 (launch2 (F := F)).win.arr_inj c _ _ w
theorem W7A_of_ne (c : Dev nD) (A : (w : Fin 4) → Buf (Elt F) ((spec2 w).arr.view.loc (c : Thread nD τ)))
    (b : Ref sig .tc) (hb : ∀ w, Pipeline.arrRef spec2 w ≠ b) :
    W7A m hok c A (Proc.devRef .tc b) = W6 m hok c (Proc.devRef .tc b) := by
  unfold W7A; exact Pipeline.withArrays_of_ne spec2 c _ _ b hb

theorem in_of_kept2 : ∀ w : Fin 4, fgt2 w = false → (cfg2.win w).isOut = false
  | ⟨0, _⟩, _ => rfl
  | ⟨1, _⟩, _ => rfl
  | ⟨2, _⟩, _ => rfl
  | ⟨3, _⟩, h => Bool.noConfusion (show true = false from h)
  | ⟨_ + 4, h⟩, _ => absurd h (Nat.not_lt.2 (Nat.le_add_left _ _))

theorem kept2_of_ne : ∀ w : Fin 4, Pipeline.arrRef spec2 w ≠ main_v39 → fgt2 w = false
  | ⟨0, _⟩, _ => rfl
  | ⟨1, _⟩, _ => rfl
  | ⟨2, _⟩, _ => rfl
  | ⟨3, _⟩, h => absurd rfl h
  | ⟨_ + 4, h⟩, _ => absurd h (Nat.not_lt.2 (Nat.le_add_left _ _))

theorem W7A_off (c : Dev nD) (A : (w : Fin 4) → Buf (Elt F) ((spec2 w).arr.view.loc (c : Thread nD τ)))
    (hA : ∀ w, fgt2 w = false → A w = V6 m hok c (Pipeline.arrRef spec2 w))
    (b : DevRef τ sig) (hb : b ≠ Proc.devRef .tc main_v39) : W7A m hok c A b = W6 m hok c b := by
  by_cases h : ∃ w, Proc.devRef .tc (Pipeline.arrRef spec2 w) = b
  · obtain ⟨w, rfl⟩ := h
    rw [W7A_arr]
    exact hA w (kept2_of_ne w fun e => hb (congrArg (Proc.devRef .tc) e))
  · unfold W7A Pipeline.withArrays
    rw [dif_neg h]

theorem arraysAt_open2 (c : Dev nD) :
    ((rdats m hok 2 c).arraysAt cfg2.N : sProp 𝕄)
      ⊢ iprop(∃ A : (w : Fin 4) → Buf (Elt F) ((spec2 w).arr.view.loc (c : Thread nD τ)),
          ⌜∀ w, fgt2 w = false → A w = V6 m hok c (Pipeline.arrRef spec2 w)⌝
          ∗ (dat2 (V6 m hok) c).arrays A) := by
  unfold Pipeline.RDat.arraysAt
  iintro Ha
  ihave Ha' := (BI.bigSep_exists_pi Finset.univ (fun (w : Fin 4) F => iprop(⌜(rdats m hok 2 c).ArrAt w cfg2.N F⌝
      ∗ (cfg2.win w).arr.view.loc (c : Thread nD τ) ↦[(cfg2.win w).arr.view.set]{(rdats m hok 2 c).share w} F))) $$ Ha
  icases Ha' with ⟨%A, Ha⟩
  ihave Ha2 := (BI.bigSep_pure_sep Finset.univ (fun (w : Fin 4) => (rdats m hok 2 c).ArrAt w cfg2.N (A w))
      (fun w => (cfg2.win w).arr.view.loc (c : Thread nD τ) ↦[(cfg2.win w).arr.view.set]{(rdats m hok 2 c).share w} A w)) $$ Ha
  icases Ha2 with ⟨%hA', Ha⟩
  iexists A
  isplitr
  · ipureintro
    intro w hw
    have h1 : A w = (dat2 (V6 m hok) c).arrAt w cfg2.N :=
      ((dat2 (V6 m hok) c).toRForget_arrAt_iff hw _ _).mp (hA' w (Finset.mem_univ w))
    rw [h1, (dat2 (V6 m hok) c).arrAt_in w (in_of_kept2 w hw), A_eq2]
  · iapply (show (bigSep Finset.univ (fun w : Fin 4 => ((cfg2.win w).arr.view.loc (c : Thread nD τ) ↦[(cfg2.win w).arr.view.set]{(rdats m hok 2 c).share w} A w : sProp 𝕄)))
        ⊢ (dat2 (V6 m hok) c).arrays A from .rfl)
    iexact Ha

theorem join2 (c : Dev nD) (A : (w : Fin 4) → Buf (Elt F) ((spec2 w).arr.view.loc (c : Thread nD τ))) :
    iprop((dat2 (V6 m hok) c).arrays A ∗ Pipeline.unscopedRest (Ix := Unit) (Name := ℕ) (U := UR sig nD τ) (Lvl := ℕ) spec2 c (V6 m hok c))
      ⊢ (StableHlo.held (c : Thread nD τ) (Pipeline.ucRefs τ sig) (W7A m hok c A) : sProp 𝕄) := by
  have hjoin := Pipeline.unscopedBufs_of_arrays (p := 2) (pcfgs (F := F)) (adm m hok) (Ix := Unit) (Name := ℕ) (U := UR sig nD τ) (Lvl := ℕ)
    (launch2 (F := F)).win (launch2 (F := F)).arr_whole c (pdats m hok) ((pdats m hok 2 c).share_full fun _ => rfl)
    (V6 m hok c) (V7A m hok c A) A (fun w => (W7A_arr m hok c A w).symm)
    (fun b hb => W7A_of_ne m hok c A b fun w e => hb (Finset.mem_image.mpr ⟨w, Finset.mem_univ _, e⟩))
  rw [Pipeline.unscopedBufs_held] at hjoin
  exact hjoin

abbrev TₙR (c : Dev nD) : sProp 𝕄 :=
  iprop(∃ A : (w : Fin 4) → Buf (Elt F) ((spec2 w).arr.view.loc (c : Thread nD τ)),
    ⌜∀ w, fgt2 w = false → A w = V6 m hok c (Pipeline.arrRef spec2 w)⌝
    ∗ StableHlo.held (c : Thread nD τ) (Pipeline.ucRefs τ sig) (W7A m hok c A) ∗ ∃ r, prngReg c r)

set_option maxHeartbeats 1600000 in
set_option backward.isDefEq.respectTransparency.types false in

def rreg0 : Pipeline.RDat.RegionSeg (pcfgs (F := F)) (adm m hok) (rdats m hok) () defs₀ 𝒱₀ L lv 0 where
  win := (reg0 m hok).win
  block_pos := (reg0 m hok).block_pos
  stage_whole := (reg0 m hok).stage_whole
  K := (reg0 m hok).K
  fK := (reg0 m hok).fK
  osem := (reg0 m hok).osem
  ho := (reg0 m hok).ho
  hbody c := ((reg0 m hok).hbody c).toR
  hwaits := Pipeline.RDat.hwaits_of_owed_zero _ _ _ _ L lv 0 fun _ _ => rfl
  pre := (reg0 m hok).pre
  post := (reg0 m hok).post
  X := (reg0 m hok).X
  Y := (reg0 m hok).Y
  Z := (reg0 m hok).Z
  hentry := (reg0 m hok).hentry
  hin := (reg0 m hok).hin
  hout := (reg0 m hok).hout
  hexit c := (sep_mono (Entails.of_eq ((pdats m hok 0 c).toR_arraysAt_eq (cfg0 (adm0 m hok)).N)) .rfl).trans ((reg0 m hok).hexit c)

set_option maxHeartbeats 1600000 in
set_option backward.isDefEq.respectTransparency.types false in

def rreg1 : Pipeline.RDat.RegionSeg (pcfgs (F := F)) (adm m hok) (rdats m hok) () defs₀ 𝒱₀ L lv 1 where
  win := (reg1 m hok).win
  block_pos := (reg1 m hok).block_pos
  stage_whole := (reg1 m hok).stage_whole
  K := (reg1 m hok).K
  fK := (reg1 m hok).fK
  osem := (reg1 m hok).osem
  ho := (reg1 m hok).ho
  hbody c := ((reg1 m hok).hbody c).toR
  hwaits := Pipeline.RDat.hwaits_of_owed_zero _ _ _ _ L lv 1 fun _ _ => rfl
  pre := (reg1 m hok).pre
  post := (reg1 m hok).post
  X := (reg1 m hok).X
  Y := (reg1 m hok).Y
  Z := (reg1 m hok).Z
  hentry := (reg1 m hok).hentry
  hin := (reg1 m hok).hin
  hout := (reg1 m hok).hout
  hexit c := (sep_mono (Entails.of_eq ((pdats m hok 1 c).toR_arraysAt_eq cfg1.N)) .rfl).trans ((reg1 m hok).hexit c)

set_option maxHeartbeats 1600000 in
set_option backward.isDefEq.respectTransparency.types false in

def rreg2 : Pipeline.RDat.RegionSeg (pcfgs (F := F)) (adm m hok) (rdats m hok) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2_forget (V6 m hok) c).toRForget
  hwaits := Pipeline.RDat.hwaits_of_owed_zero _ _ _ _ L lv 2 fun _ _ => rfl
  pre c := iprop(StableHlo.held (c : Thread nD τ) (Pipeline.ucRefs τ sig) (W6 m hok c) ∗ R c)
  post c := iprop(TₙR m hok c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m hok c)
  hentry c := by
    rw [Pipeline.ownSems0_none]
    have hsplit := Pipeline.RDat.arrays_of_unscopedBufs (p := 2) (pcfgs (F := F)) (adm m hok) (rdats m hok) (launch2 (F := F)).win (launch2 (F := F)).arr_whole c
      ((pdats m hok 2 c).share_full fun _ => rfl) (V6 m hok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    iframe
  hin c := by
    rw [show (rdats m hok 2 c).Φ 0 = Pipeline.ΦA spec2 c from rfl]; unfold Pipeline.ΦA
    iintro ⟨Hp, -, Hr⟩
    iframe
  hout c := by
    rw [Pipeline.ownSems0_none, show (rdats m hok 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_open2 m hok c) $$ Ha
    icases Ha' with ⟨%A, %hA, Ha⟩
    imodintro
    isplitl [Ha Hrest HY]
    · iexists A
      isplitr; · ipureintro; exact hA
      isplitl [Ha Hrest]
      · iapply (join2 m hok c A); isplitl [Ha] <;> iassumption
      iexact HY
    unfold Pipeline.RDat.owesAt Pipeline.owesWithin
    icases HO with ⟨%W, -, HO⟩; iexists W; iexact HO

abbrev segsR (c : Dev nD) : List (Pipeline.RDat.Seg (pcfgs (F := F)) (adm m hok) (rdats m hok) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (rreg0 m hok),
    .region (rreg1 m hok),
    .host (hseg hostOps2 hostOps2_sub hostOps2_fresh (W5 m hok)),
    .region (rreg2 m hok) ]

variable (ρ : Dev nD → PrngReg)

set_option maxHeartbeats 1600000 in
set_option backward.isDefEq.respectTransparency.types false in

theorem run_mainR : θ_run defs (onTc (τ := τ) (main (F := F))) ⟨m, fun _ => 0, ρ⟩
    (fun r => ∀ c : Dev nD, ∀ b ∈ Pipeline.ucRefs τ sig, b ≠ Proc.devRef .tc main_v39 →
      r.2.mem (((c : Thread nD τ)).1, b) = W6 m hok c b) := by
  refine Pipeline.RDat.θ_run_regions_kit_dev (pcfgs (F := F)) (adm m hok) (rdats m hok) () (cellOf_inj (adm m hok)) emb₁ defs₀ 𝒱₀ L lv m ρ main
    (segsR m hok)
    (fun c Q => by
      rewrite [main_chain c, Pipeline.RDat.Seg.run_eq_chain,
        show (segsR m hok c).map Pipeline.RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU (initOf (Pipeline.cells (Pipeline.pin (pcfgs (F := F)) (adm m hok)) (cellOf_inj (adm m hok))) (Pipeline.launchToks (Pipeline.pin (pcfgs (F := F)) (adm m hok)) (cellOf_inj (adm m hok)))) : sProp 𝕄)
            ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := TₙR m hok)
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, b ≠ Proc.devRef .tc main_v39 → s.mem (((c : Thread nD τ)).1, b) = W6 m hok c b)
    (hfin := fun c s' => by
      iintro ⟨⟨%A, %hA, Hh, -⟩, HSI⟩
      unfold StableHlo.held
      ihave Hr := (pointsTo_read_all (Pipeline.ucRefs τ sig) (fun b => (((c : Thread nD τ)).1, b)) (W7A m hok c A) s') $$ [Hh HSI]
      · isplitl [Hh] <;> iassumption
      icases Hr with ⟨%hr, HSI⟩
      imodintro
      isplitr
      · ipureintro
        intro b hb hne
        rw [hr b hb]
        exact W7A_off m hok c A hA b hne
      iexact HSI)
    (hQ := fun s h => h)

end Cert.Kernel.Hand

end
-- ==== Proof.K.FrameR.lean ====
import proofs.«415979_j2018634629437_3_alg».proof.Proof.K.Keep
import proofs.«415979_j2018634629437_3_alg».proof.Proof.K.RunR

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

theorem frameR (hok : ok0 (tbl m)) (ρ : Dev nD → PrngReg) :
    θ_run defs (onTc (τ := τ) (main (F := F))) ⟨m, fun _ => 0, ρ⟩
      (fun r => ∀ c : Dev nD, ∀ b ∈ args, r.2.mem ((c.tc : Thread nD τ).loc b) = m ((c.tc : Thread nD τ).loc b)) :=
  (θ_run defs _ _).mono (fun r h c b hb =>
    (h c _ (mem_uc b (args_off b hb).1) (args_off b hb).2.2.2.2.2.2.2.2).trans (W6_launch m hok c b hb))
    (run_mainR m hok ρ)

end Cert.Kernel.Hand

end
-- ==== Proof.K.HostPre.lean ====
import proofs.«415979_j2018634629437_3_alg».proof.Proof.Gen.Kernel.Launch
import Idealize.ShloMosaic.Lib.StableHlo.Run
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.ValueIdx

variable {F : FTy → Type} [FloatOps F]

theorem table_eq (W : Valuation τ sig (Elt F)) :
    (StableHlo.after hostOps0_1 (StableHlo.after hostOps0 W) (Proc.devRef .tc main_v0) : (⟨S1, .i32⟩ : BufTy).Contents (Elt F))
      = minsi (broadcastInDim S1 ![] bcast_S_S1 (constantI S_ 32 50256#32))
          (maxsi (broadcastInDim S1 ![] bcast_S_S1 (constantI S_ 32 0#32)) (W (Proc.devRef .tc main_arg0))) := by
  after_results
  rfl

end Cert.Kernel.Hand

end
-- ==== Proof.LibGather2.lean ====
import Idealize.ShloMosaic.PureOps.ShapeOps
import Idealize.ShloMosaic.PureOps.Dims
import Idealize.ShloMosaic.Lib.ValueIdx

namespace IndexOpsLib

open Idealize.ShloMosaic Idealize.ShloMosaic.ValueIdx

def clampRow (N : Nat) (hN : 0 < N) {w : Nat} (v : BitVec w) : Fin N := ⟨min v.toInt.toNat (N - 1), by omega⟩

theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by

  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'

  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil

  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp

  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

end IndexOpsLib
-- ==== Proof.RowIndex.lean ====
import proofs.«415979_j2018634629437_3_alg».proof.Pre_finite_inputs
import proofs.«415979_j2018634629437_3_alg».proof.Proof.LibGather2
import Idealize.ShloMosaic.Lib.ReduceAll
import Idealize.ShloMosaic.Lib.ValueIdx

namespace Cert.RowIndex

open Idealize.ShloMosaic Idealize.ShloMosaic.ValueIdx

theorem toInt_zero32 : (0#32 : BitVec 32).toInt = 0 := by decide
theorem toInt_50256 : (50256#32 : BitVec 32).toInt = 50256 := by decide

theorem toInt_eq_toNat_of_nonneg {x : BitVec 32} (h : 0 ≤ x.toInt) : x.toInt = (x.toNat : Int) :=
  BitVec.toInt_eq_toNat_of_lt (BitVec.toInt_pos_iff.1 h)

instance subsingleton_scalar_idx : Subsingleton (⟨0, ![]⟩ : Shape).Idx := ⟨fun _ _ => funext fun d => d.elim0⟩

theorem x_nonneg {F : FTy → Type} [FloatOps F] [Cert.Pre_finite_inputs.Facts]
    {a0 : IVec Cert.Pre_finite_inputs.S1 32} {a1 : FVec F Cert.Pre_finite_inputs.S1x1x1024 .f32}
    {a2 : FVec F Cert.Pre_finite_inputs.S512x1024 .f32} {a3 : FVec F Cert.Pre_finite_inputs.S50257x1024 .f32}
    {a4 : FVec F Cert.Pre_finite_inputs.S512x2048 .f32} {a5 : FVec F Cert.Pre_finite_inputs.S512 .f32}
    {a6 : FVec F Cert.Pre_finite_inputs.S1024x2048 .f32} {a7 : FVec F Cert.Pre_finite_inputs.S1024 .f32}
    {a8 : FVec F Cert.Pre_finite_inputs.S3072x1024 .f32} {a9 : FVec F Cert.Pre_finite_inputs.S3072x1024 .f32}
    {a10 : FVec F Cert.Pre_finite_inputs.S3072 .f32} {a11 : FVec F Cert.Pre_finite_inputs.S3072 .f32}
    {a12 : FVec F Cert.Pre_finite_inputs.S50257x1024 .f32} {a13 : FVec F Cert.Pre_finite_inputs.S50257 .f32}
    (h : Cert.Pre_finite_inputs.fn (F := F) a0 a1 a2 a3 a4 a5 a6 a7 a8 a9 a10 a11 a12 a13 = fun _ => 1#1) :
    0 ≤ (a0 (ix1 (0 : Fin 1))).toInt := by
  have e := congrFun h ix0
  dsimp only [Cert.Pre_finite_inputs.fn, Cert.Pre_finite_inputs.fn_part1, Cert.Pre_finite_inputs.fn_part2,
    Cert.Pre_finite_inputs.fn_part3] at e

  have e2 := (IntOp.andi_eq_one.1 e).2

  have e3 := Host.reduce_andi_all _ _ _ _ ix0 e2 (ix1 (0 : Fin 1))

  have e4 : (0#32 : BitVec 32).toInt ≤ (a0 (ix1 (0 : Fin 1))).toInt := IntOp.cmpi_sge.1 e3
  rwa [toInt_zero32] at e4

def kRow (x : BitVec 32) : BitVec 32 := IntOp.minsi 50256#32 (IntOp.maxsi 0#32 x)

theorem kRow_cases (x : BitVec 32) :
    (x.toInt < 0 ∧ kRow x = 0#32) ∨ (0 ≤ x.toInt ∧ x.toInt ≤ 50256 ∧ kRow x = x)
      ∨ (50256 < x.toInt ∧ kRow x = 50256#32) := by
  unfold kRow IntOp.minsi IntOp.maxsi
  by_cases h1 : x.slt 0#32 = true
  · rw [if_pos h1, if_neg (by decide : ¬(50256#32 : BitVec 32).slt 0#32 = true)]
    rw [BitVec.slt_iff_toInt_lt, toInt_zero32] at h1
    exact Or.inl ⟨h1, rfl⟩
  · rw [if_neg h1]
    rw [BitVec.slt_iff_toInt_lt, toInt_zero32] at h1
    by_cases h2 : (50256#32 : BitVec 32).slt x = true
    · rw [if_pos h2]
      rw [BitVec.slt_iff_toInt_lt, toInt_50256] at h2
      exact Or.inr (Or.inr ⟨h2, rfl⟩)
    · rw [if_neg h2]
      rw [BitVec.slt_iff_toInt_lt, toInt_50256] at h2
      exact Or.inr (Or.inl ⟨by omega, by omega, rfl⟩)

theorem kRow_le (x : BitVec 32) : (kRow x).toNat ≤ 50256 := by
  rcases kRow_cases x with ⟨-, h⟩ | ⟨h0, h1, h⟩ | ⟨-, h⟩
  · rw [h]; decide
  · rw [h]
    have := toInt_eq_toNat_of_nonneg h0
    omega
  · rw [h]; decide

theorem kRow_of_nonneg {x : BitVec 32} (hx : 0 ≤ x.toInt) : (kRow x).toNat = min x.toNat 50256 := by
  have hx' := toInt_eq_toNat_of_nonneg hx
  rcases kRow_cases x with ⟨h0, -⟩ | ⟨-, h1, h⟩ | ⟨h1, h⟩
  · omega
  · rw [h]; omega
  · rw [h, show (50256#32 : BitVec 32).toNat = 50256 from by decide]; omega

section KernelVectors
variable (hb : (⟨0, ![]⟩ : Shape).BroadcastsInDim ⟨1, ![1]⟩ (![] : Fin 0 → Fin 1))

theorem clip_vec (x : IVec ⟨1, ![1]⟩ 32) :
    minsi (broadcastInDim ⟨1, ![1]⟩ ![] hb (constantI ⟨0, ![]⟩ 32 50256#32))
        (maxsi (broadcastInDim ⟨1, ![1]⟩ ![] hb (constantI ⟨0, ![]⟩ 32 0#32)) x)
      = fun i => kRow (x i) := rfl

end KernelVectors

def rRow (x : BitVec 32) : BitVec 32 := Scalar.select (IntOp.cmpi .slt x 0#32) (IntOp.addi x 50257#32) x

theorem rRow_of_nonneg {x : BitVec 32} (hx : 0 ≤ x.toInt) : rRow x = x := by
  have hc : ¬IntOp.cmpi .slt x 0#32 = 1#1 := by
    rw [IntOp.cmpi_slt, toInt_zero32]; omega
  unfold rRow
  rw [eq_zero_of_ne_one hc, select_zero]

theorem clampRow_rRow {x : BitVec 32} (hx : 0 ≤ x.toInt) :
    IndexOpsLib.clampRow 50257 (by decide) (rRow x) = ⟨min x.toNat 50256, by omega⟩ := by
  rw [rRow_of_nonneg hx]
  apply Fin.ext
  show min x.toInt.toNat (50257 - 1) = min x.toNat 50256
  rw [toInt_eq_toNat_of_nonneg hx, Int.toNat_natCast]

theorem kRow_eq_clampRow {x : BitVec 32} (hx : 0 ≤ x.toInt) :
    (kRow x).toNat = (IndexOpsLib.clampRow 50257 (by decide) (rRow x)).val := by
  rw [clampRow_rRow hx, kRow_of_nonneg hx]

end Cert.RowIndex
-- ==== Proof.K.TblOk.lean ====
import proofs.«415979_j2018634629437_3_alg».proof.Kernel
import proofs.«415979_j2018634629437_3_alg».proof.Proof.RowIndex

namespace Cert.Kernel.Hand

open Idealize.ShloMosaic Idealize.ShloMosaic.ValueIdx Cert.Kernel

variable {F : FTy → Type} [FloatOps F] [Facts₀]
open Facts₀

theorem idx_S1_eq (a b : (⟨1, ![1]⟩ : Shape).Idx) : a = b :=
  (@eq_ix1 1 a).trans ((congrArg ix1 (@Subsingleton.elim (Fin 1) _ (a 0) (b 0))).trans (@eq_ix1 1 b).symm)

theorem at_eq (pf : pre0.Contents (Elt F)) (r : Rect (pre0.ref 0).ty.shape) (h1 : r.shape.numel = 1) :
    pf.at 0 r h1 = pf 0 (ix1 (0 : Fin 1)) :=
  congrArg (pf 0) (idx_S1_eq _ _)

theorem transform_eq (pf : pre0.Contents (Elt F)) (i : grid0.Coords) :
    cc0_transform_0 inb_S1_S1_0 numel1_S1 pf i = ![(pf 0 (ix1 (0 : Fin 1)) : BitVec 32).toNat, 0, 0] :=
  congrArg (fun v : BitVec 32 => ![v.toNat, (0#32 : BitVec 32).toNat, (0#32 : BitVec 32).toNat])
    (at_eq pf (Rect.unit (s := S1) ![0] S1.size inb_S1_S1_0) numel1_S1)

section Clip

variable (pf : pre0.Contents (Elt F)) (x : IVec S1 32)
  (hpf : pf 0 = minsi (broadcastInDim S1 ![] bcast_S_S1 (constantI S_ 32 50256#32))
      (maxsi (broadcastInDim S1 ![] bcast_S_S1 (constantI S_ 32 0#32)) x))

include hpf

theorem word_of_clip : (pf 0 (ix1 (0 : Fin 1)) : BitVec 32) = Cert.RowIndex.kRow (x (ix1 (0 : Fin 1))) :=
  (congrFun hpf (ix1 (0 : Fin 1))).trans (congrFun (Cert.RowIndex.clip_vec bcast_S_S1 x) (ix1 (0 : Fin 1)))

theorem transform_of_clip (i : grid0.Coords) :
    cc0_transform_0 inb_S1_S1_0 numel1_S1 pf i = ![(Cert.RowIndex.kRow (x (ix1 (0 : Fin 1)))).toNat, 0, 0] := by
  rw [transform_eq, word_of_clip pf x hpf]

theorem row_of_clip (i : grid0.Coords) :
    cc0_transform_0 inb_S1_S1_0 numel1_S1 pf i 0 = (Cert.RowIndex.kRow (x (ix1 (0 : Fin 1)))).toNat := by
  rw [transform_of_clip pf x hpf]; rfl

theorem ok0_of_clip : ok0 pf := by
  intro i
  refine ⟨fun a => ?_, Or.inl rfl⟩
  rw [transform_of_clip pf x hpf i]
  have hk := Cert.RowIndex.kRow_le (x (ix1 (0 : Fin 1)))
  match a with
  | ⟨0, _⟩ =>
    show ((Cert.RowIndex.kRow (x (ix1 (0 : Fin 1)))).toNat + 1) * 1 ≤ 50257
    omega
  | ⟨1, _⟩ =>
    show (0 + 1) * 1 ≤ 1
    omega
  | ⟨2, _⟩ =>
    show (0 + 1) * 1024 ≤ 1024
    omega

end Clip

end Cert.Kernel.Hand
-- ==== Proof.K.Ok.lean ====
import proofs.«415979_j2018634629437_3_alg».proof.Proof.K.Segs
import proofs.«415979_j2018634629437_3_alg».proof.Proof.K.HostPre
import proofs.«415979_j2018634629437_3_alg».proof.Proof.K.TblOk
import proofs.«415979_j2018634629437_3_alg».proof.Proof.Gen.Kernel.Regions

noncomputable section

namespace Cert.Kernel.Hand

open Cert.Kernel Cert.Kernel.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

theorem tbl_word :
    tbl m 0 = minsi (broadcastInDim S1 ![] bcast_S_S1 (constantI S_ 32 50256#32))
      (maxsi (broadcastInDim S1 ![] bcast_S_S1 (constantI S_ 32 0#32)) (m ((0 : Fin 1), Proc.devRef .tc main_arg0))) :=
  (Gen.V3_of m (0 : Fin 1) main_v0 (by decide)).trans (table_eq (W0 m (0 : Fin 1)))

theorem ok_tbl : ok0 (tbl m) := ok0_of_clip (tbl m) _ (tbl_word m)

theorem tbl_row (i : grid0.Coords) :
    cc0_transform_0 inb_S1_S1_0 numel1_S1 (tbl m) i 0
      = (Cert.RowIndex.kRow ((m ((0 : Fin 1), Proc.devRef .tc main_arg0) : IVec S1 32) (ix1 (0 : Fin 1)))).toNat :=
  row_of_clip (tbl m) _ (tbl_word m) i

end Cert.Kernel.Hand

end
-- ==== Proof.KI.Reg0.lean ====
import proofs.«415979_j2018634629437_3_alg».proof.Proof.Gen.KernelIdeal.Launch
import proofs.«415979_j2018634629437_3_alg».proof.Proof.Gen.KernelIdeal.Skeleton
import proofs.«415979_j2018634629437_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (a0 : (pcfg0 (F := F)).Adm) (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

abbrev rRow3 : Rect S1x1x1024 := Rect.unit (s := S1x1x1024) ![0, 0, 0] S1x1x1024.size inb_S1x1x1024_S1x1x1024_0_0_0
abbrev rEnc : Rect S512x1024 := Rect.unit (s := S512x1024) ![0, 0] S512x1024.size inb_S512x1024_S512x1024_0_0
abbrev rAw : Rect S512x2048 := Rect.unit (s := S512x2048) ![0, 0] S512x2048.size inb_S512x2048_S512x2048_0_0
abbrev rAb : Rect S1x512 := Rect.unit (s := S1x512) ![0, 0] S1x512.size inb_S1x512_S1x512_0_0
abbrev rCw : Rect S1024x2048 := Rect.unit (s := S1024x2048) ![0, 0] S1024x2048.size inb_S1024x2048_S1024x2048_0_0
abbrev rRow : Rect S1x1024 := Rect.unit (s := S1x1024) ![0, 0] S1x1024.size inb_S1x1024_S1x1024_0_0

def out0_7 (x0 x1 : Vec F S1x1x1024 .f32) (x2 : Vec F S512x1024 .f32) (x3 : Vec F S512x2048 .f32) (x4 : Vec F S1x512 .f32)
    (x5 : Vec F S1024x2048 .f32) (x6 : Vec F S1x1024 .f32) : Vec F S1x1024 .f32 :=
  View.canon [⟨rRow, k0_pay3 (View.ld x0 rRow3) (View.ld x1 rRow3) (View.ld x3 rAw) (View.ld x4 rAb) (View.ld x2 rEnc) (View.ld x5 rCw) (View.ld x6 rRow)⟩]

def out0_8 (x0 x1 : Vec F S1x1x1024 .f32) (x3 : Vec F S512x2048 .f32) (x4 : Vec F S1x512 .f32) : Vec F S1x512 .f32 :=
  View.canon [⟨rAb, k0_pay2 (View.ld x0 rRow3) (View.ld x1 rRow3) (View.ld x3 rAw) (View.ld x4 rAb)⟩]

theorem cover0_7 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y
theorem cover0_8 (p0 : Vec F S1x512 .f32) (y : S1x512.Idx) :
    ∃ pc ∈ ([⟨rAb, p0⟩] : List (View.Piece (Elt F) S1x512 .f32)), y ∈ pc.1.set :=
  View.cover_of_tiled [⟨rAb, p0⟩] S1x512.size (by rfl) y

set_option maxHeartbeats 4000000 in

theorem sound_kernel0 (c : Dev nD) (E : Set ℕ) (i : grid0.Coords) (arg1 : Memref sig .tc .smem S1 .i32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S1024x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512 .f32) (harg10 : arg10.IsWhole)
    (x0 : Vec F S1x1x1024 .f32) (x1 : Vec F S1x1x1024 .f32) (x2 : Vec F S512x1024 .f32) (x3 : Vec F S512x2048 .f32) (x4 : Vec F S1x512 .f32) (x5 : Vec F S1024x2048 .f32) (x6 : Vec F S1x1024 .f32) (d7 o7 : Vec F S1x1024 .f32) (d8 o8 : Vec F S1x512 .f32)
    (h7 : o7 = out0_7 x0 x1 x2 x3 x4 x5 x6) (h8 : o8 = out0_8 x0 x1 x3 x4) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare d7 ∗ owns (c : Thread nD τ) arg10 fullShare d8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare o7 ∗ owns (c : Thread nD τ) arg10 fullShare o8) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9 arg10 harg10) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, -, H8⟩, Hk⟩
  subst hf0 hf1 hf2 hf3 hf4 hf5 hf6 h7 h8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

def dat0 (a0 : (pcfg0 (F := F)).Adm) (c : Dev nD) : Dat τ (Elt F) Unit ℕ (UR sig nD τ) ℕ (cfg0 a0) c where
  A w := V c (Pipeline.arrRef spec0 w)
  after w t := match w with
    | ⟨0, _⟩ => iblk0 V a0 c 0 t
    | ⟨1, _⟩ => iblk0 V a0 c 1 t
    | ⟨2, _⟩ => iblk0 V a0 c 2 t
    | ⟨3, _⟩ => iblk0 V a0 c 3 t
    | ⟨4, _⟩ => iblk0 V a0 c 4 t
    | ⟨5, _⟩ => iblk0 V a0 c 5 t
    | ⟨6, _⟩ => iblk0 V a0 c 6 t
    | ⟨7, _⟩ => out0_7 (iblk0 V a0 c 0 t) (iblk0 V a0 c 1 t) (iblk0 V a0 c 2 t) (iblk0 V a0 c 3 t) (iblk0 V a0 c 4 t) (iblk0 V a0 c 5 t) (iblk0 V a0 c 6 t)
    | ⟨8, _⟩ => out0_8 (iblk0 V a0 c 0 t) (iblk0 V a0 c 1 t) (iblk0 V a0 c 3 t) (iblk0 V a0 c 4 t)
  Φ _ := iprop(Pipeline.ΦA spec0 c ∗ Pipeline.prefHeld (Ix := Unit) (Name := ℕ) (U := UR sig nD τ) (Lvl := ℕ) pre0 c (fun _ => fullShare) a0.1)
  q _ := fullShare
  owed _ := 0

theorem A_eq0 (a0 : (pcfg0 (F := F)).Adm) (c : Dev nD) (w : Fin (cfg0 a0).W) : (dat0 V a0 c).A w = V c (Pipeline.arrRef spec0 w) := by
  dsimp only [dat0]

theorem after0_7 (a0 : (pcfg0 (F := F)).Adm) (c : Dev nD) (t : Fin (cfg0 a0).N) : (dat0 V a0 c).after 7 t = out0_7 (iblk0 V a0 c 0 t) (iblk0 V a0 c 1 t) (iblk0 V a0 c 2 t) (iblk0 V a0 c 3 t) (iblk0 V a0 c 4 t) (iblk0 V a0 c 5 t) (iblk0 V a0 c 6 t) := by dsimp only [dat0]; try rfl
theorem after0_8 (a0 : (pcfg0 (F := F)).Adm) (c : Dev nD) (t : Fin (cfg0 a0).N) : (dat0 V a0 c).after 8 t = out0_8 (iblk0 V a0 c 0 t) (iblk0 V a0 c 1 t) (iblk0 V a0 c 3 t) (iblk0 V a0 c 4 t) := by dsimp only [dat0]; try rfl

theorem before0 (a0 : (pcfg0 (F := F)).Adm) (c : Dev nD) (t : Fin (cfg0 a0).N) (w : Fin 9) (h : ((cfg0 a0).win w).isOut = false) (d) :
    (dat0 V a0 c).before w t d = (dat0 V a0 c).after w t :=
  match w, h, d with
  | ⟨0, _⟩, h, d | ⟨1, _⟩, h, d | ⟨2, _⟩, h, d | ⟨3, _⟩, h, d | ⟨4, _⟩, h, d | ⟨5, _⟩, h, d | ⟨6, _⟩, h, d =>
    ((dat0 V a0 c).before_in_eq_fetched _ h (fun _ => rfl) (fun _ _ _ => rfl) (fun _ => rfl) t d).trans rfl
  | ⟨7, _⟩, h, _ | ⟨8, _⟩, h, _ => (Bool.false_ne_true h.symm).elim

theorem sound_body0 (a0 : (pcfg0 (F := F)).Adm) (c : Dev nD) (t : Fin (cfg0 a0).N) :
    iprop((dat0 V a0 c).Φ t.castSucc ∗ (dat0 V a0 c).owesAt () t.castSucc
      ∗ bigSep Finset.univ fun w => iprop(∃ d, owns (c : Thread nD τ) (((cfg0 a0).win w).stage ((cfg0 a0).slots t w)) fullShare ((dat0 V a0 c).before w t d)))
    ⊢ wp frame (wpE (defs₀ (F := F)) Variants.none c none) Set.univ (defs₀ .tc (cfg0 a0).body ((cfg0 a0).bodyArgs t ((cfg0 a0).slots t))) fun _ =>
      iprop((dat0 V a0 c).Φ t.succ ∗ (dat0 V a0 c).owesAt () t.succ
        ∗ bigSep Finset.univ fun w => owns (c : Thread nD τ) (((cfg0 a0).win w).stage ((cfg0 a0).slots t w)) fullShare ((dat0 V a0 c).after w t)) := by
  rw [bigSep_W0, bigSep_W0]
  simp only [before0 V a0 c t 0 rfl, before0 V a0 c t 1 rfl, before0 V a0 c t 2 rfl, before0 V a0 c t 3 rfl, before0 V a0 c t 4 rfl, before0 V a0 c t 5 rfl, before0 V a0 c t 6 rfl]
  rw [show (dat0 V a0 c).Φ t.succ = (dat0 V a0 c).Φ t.castSucc from rfl,
    show (dat0 V a0 c).owesAt () t.succ = (dat0 V a0 c).owesAt () t.castSucc from rfl]
  iintro ⟨HΦ, Ho, ⟨%_, H0⟩, ⟨%_, H1⟩, ⟨%_, H2⟩, ⟨%_, H3⟩, ⟨%_, H4⟩, ⟨%_, H5⟩, ⟨%_, H6⟩, ⟨%d7, H7⟩, ⟨%d8, H8⟩⟩
  sl_whnfR [defs₀, Defs.onTc]
  iapply sound_kernel0 (h7 := after0_7 V a0 c t) (h8 := after0_8 V a0 c t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iframe HΦ Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (a0 : (pcfg0 (F := F)).Adm) (c : Dev nD) : BodyObligation (dat0 (F := F) V a0 c) (defs₀ (F := F)) Variants.none () Set.univ :=
  sound_body0 V a0 c

end Cert.KernelIdeal.Hand

end
-- ==== Proof.KI.Reg1.lean ====
import proofs.«415979_j2018634629437_3_alg».proof.Proof.Gen.KernelIdeal.Launch
import proofs.«415979_j2018634629437_3_alg».proof.Proof.Gen.KernelIdeal.Skeleton
import proofs.«415979_j2018634629437_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin (cfg1).W) (t : Fin (cfg1).N) : (((cfg1).win w).xblock ((cfg1).grid.coords t)).Idx → Elt F ((cfg1).win w).elt :=
  (((cfg1).win w).blk t).view.read (Elt F) (V c (Pipeline.arrRef spec1 w))

abbrev r1_a : Rect S1x1024 := Rect.unit (s := S1x1024) ![0, 0] S1x1024.size inb_S1x1024_S1x1024_0_0

abbrev r1_b : Rect S1024x1024 := Rect.unit (s := S1024x1024) ![0, 0] S1024x1024.size inb_S1024x1024_S1024x1024_0_0

def out1_6 (x0 : Vec F S1x1024 .f32) (x2 : Vec F S1024x1024 .f32) (x4 : Vec F S1x1024 .f32) : Vec F S1x1024 .f32 :=
  View.canon [⟨r1_a, k1_pay1 (View.ld x0 r1_a) (View.ld x2 r1_b) (View.ld x4 r1_a)⟩]

def out1_7 (x1 : Vec F S1x1024 .f32) (x3 : Vec F S1024x1024 .f32) (x5 : Vec F S1x1024 .f32) : Vec F S1x1024 .f32 :=
  View.canon [⟨r1_a, k1_pay2 (View.ld x1 r1_a) (View.ld x3 r1_b) (View.ld x5 r1_a)⟩]

def dat1 (c : Dev nD) : Dat τ (Elt F) Unit ℕ (UR sig nD τ) ℕ (cfg1) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin (cfg1).W) : (dat1 V c).A w = V c (Pipeline.arrRef spec1 w) := by
  dsimp only [dat1]

theorem after1_6 (c : Dev nD) (t : Fin cfg1.N) :
    (dat1 V c).after 6 t = out1_6 (iblk1 V c 0 t) (iblk1 V c 2 t) (iblk1 V c 4 t) := by dsimp only [dat1]
theorem after1_7 (c : Dev nD) (t : Fin cfg1.N) :
    (dat1 V c).after 7 t = out1_7 (iblk1 V c 1 t) (iblk1 V c 3 t) (iblk1 V c 5 t) := by dsimp only [dat1]

theorem before1 (c : Dev nD) (t : Fin cfg1.N) (w : Fin cfg1.W) (h : (cfg1.win w).isOut = false) (d) :
    (dat1 V c).before w t d = (dat1 V c).after w t :=
  match w, h, d with
  | ⟨0, _⟩, h, d | ⟨1, _⟩, h, d | ⟨2, _⟩, h, d | ⟨3, _⟩, h, d | ⟨4, _⟩, h, d | ⟨5, _⟩, h, d =>
    ((dat1 V c).before_in_eq_fetched _ h (fun _ => rfl) (fun _ _ _ => rfl) (fun _ => rfl) t d).trans rfl
  | ⟨6, _⟩, h, _ | ⟨7, _⟩, h, _ => (Bool.false_ne_true h.symm).elim

theorem cover1_a (p0 : Vec F S1x1024 .f32) (y : S1x1024.Idx) :
    ∃ pc ∈ ([⟨r1_a, p0⟩] : List (View.Piece (Elt F) S1x1024 .f32)), y ∈ pc.1.set :=
  View.cover_of_tiled [⟨r1_a, p0⟩] S1x1024.size (by rfl) y

set_option maxHeartbeats 1000000 in

theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (x0 : Vec F S1x1024 .f32) (x1 : Vec F S1x1024 .f32) (x2 : Vec F S1024x1024 .f32) (x3 : Vec F S1024x1024 .f32)
    (x4 : Vec F S1x1024 .f32) (x5 : Vec F S1x1024 .f32) (d6 d7 o6 o7 : Vec F S1x1024 .f32) (h6 : o6 = out1_6 x0 x2 x4) (h7 : o7 = out1_7 x1 x3 x5) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare d6 ∗ owns (c : Thread nD τ) arg8 fullShare d7
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare o6 ∗ owns (c : Thread nD τ) arg8 fullShare o7) -∗ K ⟨⟩))
      ⊢ wp frame (wpE (defs₀ (F := F)) Variants.none c none) E (cc1__gru_gate_kernel i arg1 harg1 arg2 harg2 arg3 harg3 arg4 harg4 arg5 harg5 arg6 harg6 arg7 harg7 arg8 harg8) K := by
  simp only [cc1__gru_gate_kernel_eq_skeleton]; unfold cc1__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, Hk⟩
  subst hf0 hf1 hf2 hf3 hf4 hf5 h6 h7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_a _)
  iexists _; isplitr
  swap; · iexact H7
  ipureintro
  exact View.read_writes_eq_canon _ _ _ (cover1_a _)

theorem sound_body1 (c : Dev nD) (t : Fin cfg1.N) :
    iprop((dat1 V c).Φ t.castSucc ∗ (dat1 V c).owesAt () t.castSucc
      ∗ bigSep Finset.univ fun w => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ
        ∗ bigSep Finset.univ fun w => owns (c : Thread nD τ) ((cfg1.win w).stage (cfg1.slots t w)) fullShare ((dat1 V c).after w t)) := by
  rw [bigSep_W1, bigSep_W1]
  simp only [before1 V c t 0 rfl, before1 V c t 1 rfl, before1 V c t 2 rfl, before1 V c t 3 rfl, before1 V c t 4 rfl, before1 V c t 5 rfl]
  rw [show (dat1 V c).Φ t.succ = (dat1 V c).Φ t.castSucc from rfl,
    show (dat1 V c).owesAt () t.succ = (dat1 V c).owesAt () t.castSucc from rfl]
  iintro ⟨HΦ, Ho, ⟨%_, H0⟩, ⟨%_, H1⟩, ⟨%_, H2⟩, ⟨%_, H3⟩, ⟨%_, H4⟩, ⟨%_, H5⟩, ⟨%d6, H6⟩, ⟨%d7, H7⟩⟩
  iapply sound_kernel1 c Set.univ (grid1.coords t) (st1_0 t) _ (st1_1 t) _ (st1_2 t) _ (st1_3 t) _ (st1_4 t) _ (st1_5 t) _ (st1_6 t) _ (st1_7 t) _
    ((dat1 V c).after 0 t) ((dat1 V c).after 1 t) ((dat1 V c).after 2 t) ((dat1 V c).after 3 t) ((dat1 V c).after 4 t) ((dat1 V c).after 5 t)
    ((dat1 V c).before 6 t d6) ((dat1 V c).before 7 t d7) _ _ (after1_6 V c t) (after1_7 V c t)
  iframe H0 H1 H2 H3 H4 H5 H6 H7
  iintro ⟨H0, H1, H2, H3, H4, H5, H6, H7⟩
  iframe

theorem body_obligation1 (c : Dev nD) : BodyObligation (dat1 (F := F) V c) (defs₀ (F := F)) Variants.none () Set.univ :=
  sound_body1 V c

end Cert.KernelIdeal.Hand

end
-- ==== Proof.KI.Reg2.lean ====
import proofs.«415979_j2018634629437_3_alg».proof.Proof.Gen.KernelIdeal.Launch
import proofs.«415979_j2018634629437_3_alg».proof.Proof.Gen.KernelIdeal.Skeleton
import proofs.«415979_j2018634629437_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin (cfg2).W) (t : Fin (cfg2).N) : (((cfg2).win w).xblock ((cfg2).grid.coords t)).Idx → Elt F ((cfg2).win w).elt :=
  (((cfg2).win w).blk t).view.read (Elt F) (V c (Pipeline.arrRef spec2 w))

abbrev pad2 : Elt F .f32 := Scalar.ofBits .f32 0#32

def wblk2 (c : Dev nD) (t : Fin cfg2.N) : Vec F S4096x1024 .f32 :=
  win2_1.fill (grid2.coords t) (fun _ => pad2) (iblk2 V c 1 t)

def bblk2 (c : Dev nD) (t : Fin cfg2.N) : Vec F S1x4096 .f32 :=
  win2_2.fill (grid2.coords t) (fun _ => pad2) (iblk2 V c 2 t)

abbrev r2_2 : Rect S1x4096 := Rect.unit (s := S1x4096) ![0, 0] S1x4096.size inb_S1x4096_S1x4096_0_0

theorem off2_zero : (![0, 0] : Fin 2 → Nat) = fun _ => 0 := funext fun a => by fin_cases a <;> rfl

def out2_3 (x0 : Vec F S1x1024 .f32) (x1 : Vec F S4096x1024 .f32) (x2 : Vec F S1x4096 .f32) : Vec F S1x4096 .f32 :=
  k2_pay1 x0 x1 x2

theorem cover2_3 (p0 : Vec F S1x4096 .f32) (y : S1x4096.Idx) :
    ∃ pc ∈ ([⟨r2_2, p0⟩] : List (View.Piece (Elt F) S1x4096 .f32)), y ∈ pc.1.set :=
  View.cover_of_tiled [⟨r2_2, p0⟩] S1x4096.size (by rfl) y

set_option maxHeartbeats 1000000 in

theorem sound_kernel2 (c : Dev nD) (E : Set ℕ) (i : grid2.Coords)
    (arg1 : Memref sig .tc .vmem S1x1024 .f32) (harg1 : arg1.IsWhole)
    (arg2 : Memref sig .tc .vmem S4096x1024 .f32) (harg2 : arg2.IsWhole)
    (arg3 : Memref sig .tc .vmem S1x4096 .f32) (harg3 : arg3.IsWhole)
    (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 _), View.canon_unit_zero off2_zero]
  simp only [View.readAt_eq_ld, View.ld_unit_zero (S := S1x1024) off2_zero, View.ld_unit_zero (S := S4096x1024) off2_zero,
    View.ld_unit_zero (S := S1x4096) off2_zero]
  rfl

def dat2 (c : Dev nD) : Dat τ (Elt F) Unit ℕ (UR sig nD τ) ℕ (cfg2) c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin (cfg2).W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = out2_3 (iblk2 V c 0 t) (wblk2 V c t) (bblk2 V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

theorem before2_1 (c : Dev nD) (t : Fin cfg2.N) (d) :
    (dat2 V c).before 1 t d = win2_1.fill (grid2.coords t) d (iblk2 V c 1 t) :=
  (dat2 V c).before_fetched 1 t (fetch2_1 t) d

theorem before2_2 (c : Dev nD) (t : Fin cfg2.N) (d) :
    (dat2 V c).before 2 t d = win2_2.fill (grid2.coords t) d (iblk2 V c 2 t) :=
  (dat2 V c).before_fetched 2 t (fetch2_2 t) d

theorem before2_3 (c : Dev nD) (t : Fin cfg2.N) (d) : (dat2 V c).before 3 t d = d :=
  (dat2 V c).before_out_reset 3 rfl t ((em (t.val = 0)).imp_right fun h => ⟨h, flush2_3 _⟩) d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyLeft2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ ∃ d1 d2, owns (c : Thread nD τ) (st2_1 t) fullShare (win2_1.fill (grid2.coords t) d1 (iblk2 V c 1 t))
        ∗ owns (c : Thread nD τ) (st2_2 t) fullShare (win2_2.fill (grid2.coords t) d2 (iblk2 V c 2 t))
        ∗ owns (c : Thread nD τ) (st2_3 t) fullShare
            (out2_3 (iblk2 V c 0 t) (win2_1.fill (grid2.coords t) d1 (iblk2 V c 1 t)) (win2_2.fill (grid2.coords t) d2 (iblk2 V c 2 t))))

theorem sound_body2 (c : Dev nD) (t : Fin cfg2.N) :
    bodyPre2 V c t ⊢ wp frame (wpE (defs₀ (F := F)) Variants.none c none) Set.univ (bodyAt2 t) (fun _ => bodyLeft2 V c t) := by
  unfold bodyPre2 bodyLeft2 bodyAt2
  simp only [before2_0, before2_1, before2_2, before2_3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t)
    (win2_1.fill (grid2.coords t) d1 (iblk2 V c 1 t)) (win2_2.fill (grid2.coords t) d2 (iblk2 V c 2 t)) _)
  iframe H0 H1 H2
  isplitl [H3]; · iexists _; iexact H3
  iintro ⟨H0, H1, H2, H3⟩
  iframe HΦ Ho H0
  iexists d1, d2
  iframe

end Cert.KernelIdeal.Hand

end
-- ==== Proof.KI.Segs.lean ====
import proofs.«415979_j2018634629437_3_alg».proof.Proof.KI.Reg0
import proofs.«415979_j2018634629437_3_alg».proof.Proof.KI.Reg1
import proofs.«415979_j2018634629437_3_alg».proof.Proof.KI.Reg2
import proofs.«415979_j2018634629437_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

def tbl : pre0.Contents (Elt F) := fun k => V3 m (0 : Fin 1) (pre0.ref k)

theorem tbl_eq (c : Dev nD) (k : Fin pre0.K) : V3 m c (pre0.ref k) = tbl m k := by
  obtain rfl : c = (0 : Fin 1) := Subsingleton.elim _ _
  rfl

variable (hok : ok0 (tbl m))

def adm0 : (pcfg0 (F := F)).Adm := ⟨tbl m, hok⟩
def adm : (p : Fin 3) → (pcfgs (F := F) p).Adm
  | ⟨0, _⟩ => adm0 m hok
  | ⟨1, _⟩ => cfg1.toPCfg_adm
  | ⟨2, _⟩ => cfg2.toPCfg_adm

def W4 (c : Dev nD) : Valuation τ sig (Elt F) :=
  Pipeline.withArrays spec0 c (W3 m c) fun w => (dat0 (V3 m) (adm0 m hok) c).arrAt w (cfg0 (adm0 m hok)).N
abbrev V4 : (c : Dev nD) → (b : Ref sig .tc) → Buf (Elt F) ((c : Thread nD τ).loc b) := fun c b => W4 m hok c b

def W5 (c : Dev nD) : Valuation τ sig (Elt F) :=
  Pipeline.withArrays spec1 c (W4 m hok c) fun w => (dat1 (V4 m hok) c).arrAt w cfg1.N
abbrev V5 : (c : Dev nD) → (b : Ref sig .tc) → Buf (Elt F) ((c : Thread nD τ).loc b) := fun c b => W5 m hok c b

abbrev W6 : Dev nD → Valuation τ sig (Elt F) := fun c => StableHlo.after hostOps2 (W5 m hok c)
abbrev V6 : (c : Dev nD) → (b : Ref sig .tc) → Buf (Elt F) ((c : Thread nD τ).loc b) := fun c b => W6 m hok c b

theorem W4_arr (c : Dev nD) (w : Fin 9) :
    W4 m hok c (Proc.devRef .tc (Pipeline.arrRef spec0 w)) = (dat0 (V3 m) (adm0 m hok) c).arrAt w (cfg0 (adm0 m hok)).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m hok c (Proc.devRef .tc b) = W3 m c (Proc.devRef .tc b) := by
  unfold W4; exact Pipeline.withArrays_of_ne spec0 c _ _ b hb
theorem W5_arr (c : Dev nD) (w : Fin 8) :
    W5 m hok c (Proc.devRef .tc (Pipeline.arrRef spec1 w)) = (dat1 (V4 m hok) c).arrAt w cfg1.N := by
  unfold W5; exact Pipeline.withArrays_arr spec1 (launch1 (F := F)).win.arr_inj c _ _ w
theorem W5_of_ne (c : Dev nD) (b : Ref sig .tc) (hb : ∀ w, Pipeline.arrRef spec1 w ≠ b) :
    W5 m hok c (Proc.devRef .tc b) = W4 m hok c (Proc.devRef .tc b) := by
  unfold W5; exact Pipeline.withArrays_of_ne spec1 c _ _ b hb
def pdats : (p : Fin 3) → (c : Dev nD) → Dat τ (Elt F) Unit ℕ (UR sig nD τ) ℕ (Pipeline.pin (pcfgs (F := F)) (adm m hok) p) c
  | ⟨0, _⟩ => fun c => dat0 (V3 m) (adm0 m hok) c
  | ⟨1, _⟩ => fun c => dat1 (V4 m hok) c
  | ⟨2, _⟩ => fun c => dat2 (V6 m hok) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 1600000 in
set_option backward.isDefEq.respectTransparency.types false in

def reg0 : Pipeline.RegionSeg (pcfgs (F := F)) (adm m hok) (pdats m hok) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m) (adm0 m hok) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m hok c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m))
  Z c := Pipeline.unscopedRestP (Ix := Unit) (Name := ℕ) (U := UR sig nD τ) (Lvl := ℕ) pre0 spec0 c (V3 m c)
  hentry c := by
    rw [Pipeline.ownSems0_none]
    have hsplit := Pipeline.arrays_of_unscopedBufs (p := 0) (pcfgs (F := F)) (adm m hok) (pdats m hok) (launch0 (F := F)).win (launch0 (F := F)).arr_whole c
      ((pdats m hok 0 c).share_full fun _ => rfl) (V3 m c) fun _ => rfl
    rw [Pipeline.unscopedBufs_held, Pipeline.unscopedRest_split (launch0 (F := F)).pre c (V3 m c)] at hsplit
    iintro ⟨⟨Hub, Hp, HO⟩, -, -⟩
    ihave H := hsplit $$ Hub
    icases H with ⟨Ha, ⟨Hpf, Hrest⟩⟩
    imodintro
    isplitl [Ha]; · iexact Ha
    isplitl [Hpf]
    · rw [show (fun k => V3 m c ((pcfgs (F := F) 0).pre.ref k)) = (adm m hok 0).1 from funext (tbl_eq m c)]; iexact Hpf
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m hok 0 c).Φ 0 = iprop(Pipeline.ΦA spec0 c ∗ Pipeline.prefHeld (Ix := Unit) (Name := ℕ) (U := UR sig nD τ) (Lvl := ℕ) pre0 c (fun _ => fullShare) (tbl m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m hok 0 c).Φ (Fin.last _) = iprop(Pipeline.ΦA spec0 c ∗ Pipeline.prefHeld (Ix := Unit) (Name := ℕ) (U := UR sig nD τ) (Lvl := ℕ) pre0 c (fun _ => fullShare) (tbl m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm m hok) (Ix := Unit) (Name := ℕ) (U := UR sig nD τ) (Lvl := ℕ)
      (launch0 (F := F)).win (launch0 (F := F)).arr_whole c (pdats m hok) ((pdats m hok 0 c).share_full fun _ => rfl)
      (V3 m c) (V4 m hok c) ((pdats m hok 0 c).arrAt · (cfg0 (adm0 m hok)).N) (fun w => (W4_arr m hok c w).symm)
      (fun b hb => W4_of_ne m hok c b fun w e => hb (Finset.mem_image.mpr ⟨w, Finset.mem_univ _, e⟩))
    rw [Pipeline.unscopedBufs_held, Pipeline.unscopedRest_split (launch0 (F := F)).pre c (V3 m c),
      show (fun k => V3 m c ((pcfgs (F := F) 0).pre.ref k)) = tbl m from funext (tbl_eq m c)] at hjoin
    iintro ⟨Ha, HO, HY, Hrest⟩
    icases HY with ⟨HY, Hpf⟩
    imodintro
    isplitl [Ha Hrest Hpf]
    · iapply hjoin; isplitl [Ha]; · iexact Ha
      iframe
    isplitl [HY]; · iexact HY
    unfold Pipeline.Dat.owesAt Pipeline.owesWithin
    icases HO with ⟨%W, -, HO⟩; iexists W; iexact HO

set_option maxHeartbeats 1600000 in
set_option backward.isDefEq.respectTransparency.types false in

def reg1 : Pipeline.RegionSeg (pcfgs (F := F)) (adm m hok) (pdats m hok) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V4 m hok) c).loose
  hwaits := Pipeline.hwaits_of_owed_zero _ _ _ _ L lv 1 fun _ _ => rfl
  pre c := iprop(StableHlo.held (c : Thread nD τ) (Pipeline.ucRefs τ sig) (W4 m hok c) ∗ R c)
  post c := iprop(StableHlo.held (c : Thread nD τ) (Pipeline.ucRefs τ sig) (W5 m hok c) ∗ R c)
  X c := iprop(∃ r, prngReg c r)
  Y c := iprop(∃ r, prngReg c r)
  Z c := Pipeline.unscopedRest (Ix := Unit) (Name := ℕ) (U := UR sig nD τ) (Lvl := ℕ) spec1 c (V4 m hok c)
  hentry c := by
    rw [Pipeline.ownSems0_none]
    have hsplit := Pipeline.arrays_of_unscopedBufs (p := 1) (pcfgs (F := F)) (adm m hok) (pdats m hok) (launch1 (F := F)).win (launch1 (F := F)).arr_whole c
      ((pdats m hok 1 c).share_full fun _ => rfl) (V4 m hok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m hok 1 c).Φ 0 = Pipeline.ΦA spec1 c from rfl]; unfold Pipeline.ΦA
    iintro ⟨Hp, -, Hr⟩
    iframe
  hout c := by
    rw [Pipeline.ownSems0_none, show (pdats m hok 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hok) (Ix := Unit) (Name := ℕ) (U := UR sig nD τ) (Lvl := ℕ)
      (launch1 (F := F)).win (launch1 (F := F)).arr_whole c (pdats m hok) ((pdats m hok 1 c).share_full fun _ => rfl)
      (V4 m hok c) (V5 m hok c) ((pdats m hok 1 c).arrAt · cfg1.N) (fun w => (W5_arr m hok c w).symm)
      (fun b hb => W5_of_ne m hok c b fun w e => hb (Finset.mem_image.mpr ⟨w, Finset.mem_univ _, e⟩))
    rw [Pipeline.unscopedBufs_held] at hjoin
    iintro ⟨Ha, HO, HY, Hrest⟩

    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Keep.lean ====
import proofs.«415979_j2018634629437_3_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (hok : ok0 (tbl m))

theorem W1_keep (c : Dev nD) (b : Ref sig .tc) (hb : b ∉ hostOps0_W) :
    W1 m c (Proc.devRef .tc b) = W0 m c (Proc.devRef .tc b) :=
  StableHlo.after_of_writes_sub hostOps0 _ hostOps0_writes hb
theorem W2_keep (c : Dev nD) (b : Ref sig .tc) (hb : b ∉ hostOps0_1_W) :
    W2 m c (Proc.devRef .tc b) = W1 m c (Proc.devRef .tc b) :=
  StableHlo.after_of_writes_sub hostOps0_1 _ hostOps0_1_writes hb
theorem W3_keep (c : Dev nD) (b : Ref sig .tc) (hb : b ∉ hostOps0_2_W) :
    W3 m c (Proc.devRef .tc b) = W2 m c (Proc.devRef .tc b) :=
  StableHlo.after_of_writes_sub hostOps0_2 _ hostOps0_2_writes hb
theorem W6_keep (c : Dev nD) (b : Ref sig .tc) (hb : b ∉ hostOps2_W) :
    W6 m hok c (Proc.devRef .tc b) = W5 m hok c (Proc.devRef .tc b) :=
  StableHlo.after_of_writes_sub hostOps2 _ hostOps2_writes hb

theorem out0_mem : ∀ w : Fin 9, (spec0 w).isOut = true →
    Pipeline.arrRef spec0 w ∈ ([main_v8_0, main_v8_1] : List (Ref sig .tc)) := by decide

theorem out1_mem : ∀ w : Fin 8, (spec1 w).isOut = true →
    Pipeline.arrRef spec1 w ∈ ([main_v9_0, main_v9_1] : List (Ref sig .tc)) := by decide

theorem W4_keep (c : Dev nD) (b : Ref sig .tc) (hb : b ∉ ([main_v8_0, main_v8_1] : List (Ref sig .tc))) :
    W4 m hok c (Proc.devRef .tc b) = W3 m c (Proc.devRef .tc b) := by
  by_cases h : ∃ w, Pipeline.arrRef spec0 w = b
  · obtain ⟨w, rfl⟩ := h
    have hin : ((cfg0 (adm0 m hok)).win w).isOut = false := by
      cases ho : ((cfg0 (adm0 m hok)).win w).isOut
      · rfl
      · exact absurd (out0_mem w ho) hb
    exact (W4_arr m hok c w).trans
      (((dat0 (V3 m) (adm0 m hok) c).arrAt_in w hin _).trans (A_eq0 (V3 m) (adm0 m hok) c w))
  · exact W4_of_ne m hok c b fun w e => h ⟨w, e⟩

theorem W5_keep (c : Dev nD) (b : Ref sig .tc) (hb : b ∉ ([main_v9_0, main_v9_1] : List (Ref sig .tc))) :
    W5 m hok c (Proc.devRef .tc b) = W4 m hok c (Proc.devRef .tc b) := by
  by_cases h : ∃ w, Pipeline.arrRef spec1 w = b
  · obtain ⟨w, rfl⟩ := h
    have hin : (cfg1.win w).isOut = false := by
      cases ho : (cfg1.win w).isOut
      · rfl
      · exact absurd (out1_mem w ho) hb
    exact (W5_arr m hok c w).trans (((dat1 (V4 m hok) c).arrAt_in w hin _).trans (A_eq1 (V4 m hok) c w))
  · exact W5_of_ne m hok c b fun w e => h ⟨w, e⟩

abbrev args : List (Ref sig .tc) :=
  [main_arg0, main_arg1, main_arg2, main_arg3, main_arg4, main_arg5, main_arg6, main_arg7, main_arg8, main_arg9,
    main_arg10, main_arg11, main_arg12, main_arg13]

-- No argument is private to a region, written by a host stretch, or an output array of a region.
theorem args_off : ∀ b ∈ args, ¬ (Proc.devRef .tc b : DevRef τ sig).isScoped ∧ b ∉ hostOps0_W ∧ b ∉ hostOps0_1_W
    ∧ b ∉ hostOps0_2_W ∧ b ∉ ([main_v8_0, main_v8_1] : List (Ref sig .tc)) ∧ b ∉ ([main_v9_0, main_v9_1] : List (Ref sig .tc))
    ∧ b ∉ hostOps2_W ∧ b ∉ ([main_v39] : List (Ref sig .tc))
    ∧ (Proc.devRef .tc b : DevRef τ sig) ≠ Proc.devRef .tc main_v39 := by decide

-- So an argument still holds its launch contents when the last region is entered.
theorem W6_launch (c : Dev nD) (b : Ref sig .tc) (hb : b ∈ args) :
    W6 m hok c (Proc.devRef .tc b) = m ((c : Thread nD τ).loc b) :=
  have ⟨_, h1, h2, h3, h4, h5, h6, _, _⟩ := args_off b hb
  (W6_keep m hok c b h6).trans <| (W5_keep m hok c b h5).trans <| (W4_keep m hok c b h4).trans <|
    (W3_keep m c b h3).trans <| (W2_keep m c b h2).trans <| (W1_keep m c b h1).trans rfl

end Cert.KernelIdeal.Hand

end
-- ==== Proof.KI.Reg2N.lean ====
import proofs.«415979_j2018634629437_3_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def PayLocal2 (F : FTy → Type) [FloatOps F] : Prop :=
  ∀ (x0 : Vec F S1x1024 .f32) (x1 x1' : Vec F S4096x1024 .f32) (x2 x2' : Vec F S1x4096 .f32) (q : Fin 4096),
    (∀ k : Fin 1024, x1 (ix2 q k) = x1' (ix2 q k)) → x2 (ix2 (0 : Fin 1) q) = x2' (ix2 (0 : Fin 1) q) →
    k2_pay1 x0 x1 x2 (ix2 (0 : Fin 1) q) = k2_pay1 x0 x1' x2' (ix2 (0 : Fin 1) q)

theorem xsize2_rows (i : grid2.Coords) : win2_1.xsize i 0 = win2_3.xsize i 1 := rfl
theorem xsize2_bias (i : grid2.Coords) : win2_2.xsize i 1 = win2_3.xsize i 1 := rfl
theorem xsize2_cols (i : grid2.Coords) : win2_1.xsize i 1 = 1024 := by decide +revert
theorem xsize2_unit (i : grid2.Coords) : win2_2.xsize i 0 = 1 := by decide +revert

theorem cut_out2_3 (hloc : PayLocal2 F) (i : grid2.Coords) (x0 : Vec F S1x1024 .f32)
    (b1 : (win2_1.xblock i).Idx → Elt F .f32) (b2 : (win2_2.xblock i).Idx → Elt F .f32)
    (d1 d1' : S4096x1024.Idx → Elt F .f32) (d2 d2' : S1x4096.Idx → Elt F .f32) :
    win2_3.cut i (out2_3 x0 (win2_1.fill i d1 b1) (win2_2.fill i d2 b2))
      = win2_3.cut i (out2_3 x0 (win2_1.fill i d1' b1) (win2_2.fill i d2' b2)) := by
  funext j
  have hj1 : (j 1).val < win2_3.xsize i 1 := (j 1).isLt
  have hq : (j 1).val < 4096 := Nat.lt_of_lt_of_le hj1 (win2_3.xsize_le i 1)
  have hj0 : (j 0).val = 0 := by
    have h := Nat.lt_of_lt_of_le (j 0).isLt (win2_3.xsize_le i 0)
    have h1 : win2_3.size 0 = 1 := rfl
    omega
  have hJ : win2_3.xinj i j = ix2 (0 : Fin 1) (⟨(j 1).val, hq⟩ : Fin 4096) := by
    funext a
    match a with
    | ⟨0, _⟩ => exact Fin.ext hj0
    | ⟨1, _⟩ => rfl
  show out2_3 x0 _ _ (win2_3.xinj i j) = out2_3 x0 _ _ (win2_3.xinj i j)
  rw [hJ]
  unfold out2_3
  refine hloc x0 _ _ _ _ ⟨(j 1).val, hq⟩ (fun k => ?_) ?_
  · have hm : win2_1.moved i (ix2 (⟨(j 1).val, hq⟩ : Fin 4096) k) = true :=
      (win2_1.moved_iff i _).mpr fun a => by
        match a with
        | ⟨0, _⟩ => exact (xsize2_rows i).symm ▸ hj1
        | ⟨1, _⟩ => exact (xsize2_cols i).symm ▸ k.isLt
    unfold Window.fill; rw [dif_pos hm, dif_pos hm]
  · have hm : win2_2.moved i (ix2 (0 : Fin 1) (⟨(j 1).val, hq⟩ : Fin 4096)) = true :=
      (win2_2.moved_iff i _).mpr fun a => by
        match a with
        | ⟨0, _⟩ => exact (xsize2_unit i).symm ▸ Nat.one_pos
        | ⟨1, _⟩ => exact (xsize2_bias i).symm ▸ hj1
    unfold Window.fill; rw [dif_pos hm, dif_pos hm]

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ d, owns (c : Thread nD τ) (st2_3 t) fullShare (win2_3.fill (grid2.coords t) d (win2_3.cut (grid2.coords t) ((dat2 V c).after 3 t)))))

theorem left_post2 (hloc : PayLocal2 F) (c : Dev nD) (t : Fin cfg2.N) : bodyLeft2 V c t ⊢ bodyPost2 V c t := by
  unfold bodyLeft2 bodyPost2
  rw [after2_0, after2_1, after2_2, after2_3]
  iintro ⟨HΦ, Ho, H0, ⟨%d1, %d2, H1, H2, H3⟩⟩
  isplitl [HΦ]; · iexact HΦ
  iframe Ho H0
  isplitl [H1]
  · iexists d1
    unfold wblk2; rw [win2_1.cut_fill]; iexact H1
  isplitl [H2]
  · iexists d2
    unfold bblk2; rw [win2_2.cut_fill]; iexact H2
  · iexists (out2_3 (iblk2 V c 0 t) (win2_1.fill (grid2.coords t) d1 (iblk2 V c 1 t)) (win2_2.fill (grid2.coords t) d2 (iblk2 V c 2 t)))
    unfold wblk2 bblk2
    rw [win2_3.fill_congr_cut (grid2.coords t) (cut_out2_3 hloc (grid2.coords t) _ _ _ d1 _ d2 _)]
    iexact H3

theorem body_obligation2_of (hloc : PayLocal2 F) (c : Dev nD) :
    BodyObligationLoose (dat2 (F := F) V c) (defs₀ (F := F)) Variants.none () Set.univ := fun t => by
  rw [bigSep_W2, bigSep_W2]
  exact (sound_body2 V c t).trans (wp_mono _ _ _ fun _ => left_post2 V hloc c t)

end Cert.KernelIdeal.Hand

end
-- ==== Proof.KI.Run.lean ====
import proofs.«415979_j2018634629437_3_alg».proof.Proof.KI.Segs
import proofs.«415979_j2018634629437_3_alg».proof.Proof.KI.Reg2N

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (hok : ok0 (tbl m))
variable (hloc : PayLocal2 F)

def W7 (c : Dev nD) : Valuation τ sig (Elt F) :=
  Pipeline.withArrays spec2 c (W6 m hok c) fun w => (dat2 (V6 m hok) c).arrAt w cfg2.N
abbrev V7 : (c : Dev nD) → (b : Ref sig .tc) → Buf (Elt F) ((c : Thread nD τ).loc b) := fun c b => W7 m hok c b

theorem W7_arr (c : Dev nD) (w : Fin 4) :
    W7 m hok c (Proc.devRef .tc (Pipeline.arrRef spec2 w)) = (dat2 (V6 m hok) c).arrAt w cfg2.N := by
  unfold W7; exact Pipeline.withArrays_arr spec2 (launch2 (F := F)).win.arr_inj c _ _ w
theorem W7_of_ne (c : Dev nD) (b : Ref sig .tc) (hb : ∀ w, Pipeline.arrRef spec2 w ≠ b) :
    W7 m hok c (Proc.devRef .tc b) = W6 m hok c (Proc.devRef .tc b) := by
  unfold W7; exact Pipeline.withArrays_of_ne spec2 c _ _ b hb

abbrev Tₙ (c : Dev nD) : sProp 𝕄 := iprop(StableHlo.held (c : Thread nD τ) (Pipeline.ucRefs τ sig) (W7 m hok c) ∗ ∃ r, prngReg c r)

set_option maxHeartbeats 1600000 in
set_option backward.isDefEq.respectTransparency.types false in

def reg2 : Pipeline.RegionSeg (pcfgs (F := F)) (adm m hok) (pdats m hok) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := body_obligation2_of (V6 m hok) hloc c
  hwaits := Pipeline.hwaits_of_owed_zero _ _ _ _ L lv 2 fun _ _ => rfl
  pre c := iprop(StableHlo.held (c : Thread nD τ) (Pipeline.ucRefs τ sig) (W6 m hok c) ∗ R c)
  post c := iprop(Tₙ m hok c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m hok c)
  hentry c := by
    rw [Pipeline.ownSems0_none]
    have hsplit := Pipeline.arrays_of_unscopedBufs (p := 2) (pcfgs (F := F)) (adm m hok) (pdats m hok) (launch2 (F := F)).win (launch2 (F := F)).arr_whole c
      ((pdats m hok 2 c).share_full fun _ => rfl) (V6 m hok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m hok 2 c).Φ 0 = Pipeline.ΦA spec2 c from rfl]; unfold Pipeline.ΦA
    iintro ⟨Hp, -, Hr⟩
    iframe
  hout c := by
    rw [Pipeline.ownSems0_none, show (pdats m hok 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hok) (Ix := Unit) (Name := ℕ) (U := UR sig nD τ) (Lvl := ℕ)
      (launch2 (F := F)).win (launch2 (F := F)).arr_whole c (pdats m hok) ((pdats m hok 2 c).share_full fun _ => rfl)
      (V6 m hok c) (V7 m hok c) ((pdats m hok 2 c).arrAt · cfg2.N) (fun w => (W7_arr m hok c w).symm)
      (fun b hb => W7_of_ne m hok c b fun w e => hb (Finset.mem_image.mpr ⟨w, Finset.mem_univ _, e⟩))
    rw [Pipeline.unscopedBufs_held] at hjoin
    iintro ⟨Ha, HO, HY, Hrest⟩

    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs (c : Dev nD) : List (Pipeline.Seg (pcfgs (F := F)) (adm m hok) (pdats m hok) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hok),
    .region (reg1 m hok),
    .host (hseg hostOps2 hostOps2_sub hostOps2_fresh (W5 m hok)),
    .region (reg2 m hok hloc) ]

variable (ρ : Dev nD → PrngReg)

include hloc in
set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = W7 m hok c b) := by
  refine Pipeline.θ_run_regions_kit_dev (pcfgs (F := F)) (adm m hok) (pdats m hok) () (cellOf_inj (adm m hok)) emb₁ defs₀ 𝒱₀ L lv m ρ main
    (segs m hok hloc)
    (fun c Q => by
      rewrite [main_chain c, Pipeline.Seg.run_eq_chain,
        show (segs m hok hloc c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU (initOf (Pipeline.cells (Pipeline.pin (pcfgs (F := F)) (adm m hok)) (cellOf_inj (adm m hok))) (Pipeline.launchToks (Pipeline.pin (pcfgs (F := F)) (adm m hok)) (cellOf_inj (adm m hok)))) : sProp 𝕄)
            ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hok)
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m hok c b)
    (hfin := fun c s' => by
      iintro ⟨⟨Hh, -⟩, HSI⟩
      unfold StableHlo.held
      imodintro
      iapply (pointsTo_read_all (Pipeline.ucRefs τ sig) (fun b => (((c : Thread nD τ)).1, b)) (W7 m hok c) s')
      isplitl [Hh] <;> iassumption)
    (hQ := fun s h => h)

theorem out2_mem : ∀ w : Fin 4, (spec2 w).isOut = true →
    Pipeline.arrRef spec2 w ∈ ([main_v39] : List (Ref sig .tc)) := by decide

theorem W7_keep' (c : Dev nD) (b : Ref sig .tc) (hb : b ∉ ([main_v39] : List (Ref sig .tc))) :
    W7 m hok c (Proc.devRef .tc b) = W6 m hok c (Proc.devRef .tc b) := by
  by_cases h : ∃ w, Pipeline.arrRef spec2 w = b
  · obtain ⟨w, rfl⟩ := h
    have hin : (cfg2.win w).isOut = false := by
      cases ho : (cfg2.win w).isOut
      · rfl
      · exact absurd (out2_mem w ho) hb
    exact (W7_arr m hok c w).trans (((dat2 (V6 m hok) c).arrAt_in w hin _).trans (A_eq2 (V6 m hok) c w))
  · exact W7_of_ne m hok c b fun w e => h ⟨w, e⟩

end Cert.KernelIdeal.Hand

end
-- ==== Proof.KI.Frame.lean ====
import proofs.«415979_j2018634629437_3_alg».proof.Proof.KI.Keep
import proofs.«415979_j2018634629437_3_alg».proof.Proof.KI.Run

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

-- At the end an argument holds what it held when the last region was entered: no region has it as an output.
theorem args_of_W7 (hok : ok0 (tbl m)) (s : MemSt nD τ sig (Elt F)) (c : Dev nD)
    (h : ∀ b ∈ Pipeline.ucRefs τ sig, s.mem ((c : Thread nD τ).1, b) = W7 m hok c b) :
    ∀ b ∈ args, s.mem ((c.tc : Thread nD τ).loc b) = m ((c.tc : Thread nD τ).loc b) := fun b hb =>
  (h _ (mem_uc b (args_off b hb).1)).trans
    ((W7_keep' m hok c b (args_off b hb).2.2.2.2.2.2.2.1).trans (W6_launch m hok c b hb))

theorem frame (hok : ok0 (tbl m)) (hloc : PayLocal2 F) (ρ : Dev nD → PrngReg) :
    θ_run defs (onTc (τ := τ) (main (F := F))) ⟨m, fun _ => 0, ρ⟩
      (fun r => ∀ c : Dev nD, ∀ b ∈ args, r.2.mem ((c.tc : Thread nD τ).loc b) = m ((c.tc : Thread nD τ).loc b)) :=
  (θ_run defs _ _).mono (fun r h c => args_of_W7 m hok r.2 c (h c)) (run_main m hok hloc ρ)

end Cert.KernelIdeal.Hand

end
-- ==== Proof.KI.HostPre.lean ====
import proofs.«415979_j2018634629437_3_alg».proof.Proof.Gen.KernelIdeal.Launch
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

theorem table_eq (W : Valuation τ sig (Elt F)) :
    (StableHlo.after hostOps0_1 (StableHlo.after hostOps0 W) (Proc.devRef .tc main_v0) : (⟨S1, .i32⟩ : BufTy).Contents (Elt F))
      = minsi (broadcastInDim S1 ![] bcast_S_S1 (constantI S_ 32 50256#32))
          (maxsi (broadcastInDim S1 ![] bcast_S_S1 (constantI S_ 32 0#32)) (W (Proc.devRef .tc main_arg0))) := by
  after_results
  rfl

end Cert.KernelIdeal.Hand

end
-- ==== Proof.KI.TblOk.lean ====
import proofs.«415979_j2018634629437_3_alg».proof.KernelIdeal
import proofs.«415979_j2018634629437_3_alg».proof.Proof.RowIndex

namespace Cert.KernelIdeal.Hand

open Idealize.ShloMosaic Idealize.ShloMosaic.ValueIdx Cert.KernelIdeal

variable {F : FTy → Type} [FloatOps F] [Facts₀]
open Facts₀

theorem idx_S1_eq (a b : (⟨1, ![1]⟩ : Shape).Idx) : a = b :=
  (@eq_ix1 1 a).trans ((congrArg ix1 (@Subsingleton.elim (Fin 1) _ (a 0) (b 0))).trans (@eq_ix1 1 b).symm)

theorem at_eq (pf : pre0.Contents (Elt F)) (r : Rect (pre0.ref 0).ty.shape) (h1 : r.shape.numel = 1) :
    pf.at 0 r h1 = pf 0 (ix1 (0 : Fin 1)) :=
  congrArg (pf 0) (idx_S1_eq _ _)

theorem transform_eq (pf : pre0.Contents (Elt F)) (i : grid0.Coords) :
    cc0_transform_0 inb_S1_S1_0 numel1_S1 pf i = ![(pf 0 (ix1 (0 : Fin 1)) : BitVec 32).toNat, 0, 0] :=
  congrArg (fun v : BitVec 32 => ![v.toNat, (0#32 : BitVec 32).toNat, (0#32 : BitVec 32).toNat])
    (at_eq pf (Rect.unit (s := S1) ![0] S1.size inb_S1_S1_0) numel1_S1)

section Clip

variable (pf : pre0.Contents (Elt F)) (x : IVec S1 32)
  (hpf : pf 0 = minsi (broadcastInDim S1 ![] bcast_S_S1 (constantI S_ 32 50256#32))
      (maxsi (broadcastInDim S1 ![] bcast_S_S1 (constantI S_ 32 0#32)) x))

include hpf

theorem word_of_clip : (pf 0 (ix1 (0 : Fin 1)) : BitVec 32) = Cert.RowIndex.kRow (x (ix1 (0 : Fin 1))) :=
  (congrFun hpf (ix1 (0 : Fin 1))).trans (congrFun (Cert.RowIndex.clip_vec bcast_S_S1 x) (ix1 (0 : Fin 1)))

theorem transform_of_clip (i : grid0.Coords) :
    cc0_transform_0 inb_S1_S1_0 numel1_S1 pf i = ![(Cert.RowIndex.kRow (x (ix1 (0 : Fin 1)))).toNat, 0, 0] := by
  rw [transform_eq, word_of_clip pf x hpf]

theorem row_of_clip (i : grid0.Coords) :
    cc0_transform_0 inb_S1_S1_0 numel1_S1 pf i 0 = (Cert.RowIndex.kRow (x (ix1 (0 : Fin 1)))).toNat := by
  rw [transform_of_clip pf x hpf]; rfl

theorem ok0_of_clip : ok0 pf := by
  intro i
  refine ⟨fun a => ?_, Or.inl rfl⟩
  rw [transform_of_clip pf x hpf i]
  have hk := Cert.RowIndex.kRow_le (x (ix1 (0 : Fin 1)))
  match a with
  | ⟨0, _⟩ =>
    show ((Cert.RowIndex.kRow (x (ix1 (0 : Fin 1)))).toNat + 1) * 1 ≤ 50257
    omega
  | ⟨1, _⟩ =>
    show (0 + 1) * 1 ≤ 1
    omega
  | ⟨2, _⟩ =>
    show (0 + 1) * 1024 ≤ 1024
    omega

end Clip

end Cert.KernelIdeal.Hand
-- ==== Proof.KI.Ok.lean ====
import proofs.«415979_j2018634629437_3_alg».proof.Proof.KI.Segs
import proofs.«415979_j2018634629437_3_alg».proof.Proof.KI.HostPre
import proofs.«415979_j2018634629437_3_alg».proof.Proof.KI.TblOk
import proofs.«415979_j2018634629437_3_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

theorem tbl_word :
    tbl m 0 = minsi (broadcastInDim S1 ![] bcast_S_S1 (constantI S_ 32 50256#32))
      (maxsi (broadcastInDim S1 ![] bcast_S_S1 (constantI S_ 32 0#32)) (m ((0 : Fin 1), Proc.devRef .tc main_arg0))) :=
  (Gen.V3_of m (0 : Fin 1) main_v0 (by decide)).trans (table_eq (W0 m (0 : Fin 1)))

theorem ok_tbl : ok0 (tbl m) := ok0_of_clip (tbl m) _ (tbl_word m)

theorem tbl_row (i : grid0.Coords) :
    cc0_transform_0 inb_S1_S1_0 numel1_S1 (tbl m) i 0
      = (Cert.RowIndex.kRow ((m ((0 : Fin 1), Proc.devRef .tc main_arg0) : IVec S1 32) (ix1 (0 : Fin 1)))).toNat :=
  row_of_clip (tbl m) _ (tbl_word m) i

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (n0 n1 : Nat) : Type := (⟨2, ![n0, n1]⟩ : Shape).Idx → EReal

def catAt (u v : Arr 1 1024) (k : Fin 2048) : EReal :=
  if h : k.val < 1024 then u (ix2 0 ⟨k.val, h⟩) else v (ix2 0 ⟨k.val - 1024, by omega⟩)

def logits (e h0 : Arr 1 1024) (aw : Arr 512 2048) (ab : Arr 1 512) : Arr 1 512 :=
  fun j => (∑ k : Fin 2048, catAt e h0 k * aw (ix2 (j 1) k)) + ab j

def rowMax (l : Arr 1 512) : EReal := Finset.univ.sup fun k : Fin 512 => l (ix2 0 k)

def softmax (l : Arr 1 512) : Arr 1 512 :=
  fun j => Ideal.div (Ideal.exp (l j - rowMax l)) (∑ k : Fin 512, Ideal.exp (l (ix2 0 k) - rowMax l))

def ctx (p : Arr 1 512) (enc : Arr 512 1024) : Arr 1 1024 :=
  fun j => ∑ k : Fin 512, p (ix2 0 k) * enc (ix2 k (j 1))

def cellIn (e c : Arr 1 1024) (cw : Arr 1024 2048) (cb : Arr 1 1024) : Arr 1 1024 :=
  fun j => max ((∑ k : Fin 2048, catAt e c k * cw (ix2 (j 1) k)) + cb j) 0

def gates (v : Arr 1 1024) (w : Arr 3072 1024) (b : Arr 1 3072) : Arr 1 3072 :=
  fun j => (∑ k : Fin 1024, v (ix2 0 k) * w (ix2 (j 1) k)) + b j

def sigm (t : EReal) : EReal := Ideal.div 1 (1 + Ideal.exp (-t))

def newState (gi gh : Arr 1 3072) (h0 : Arr 1 1024) : Arr 1 1024 := fun j =>
  let q : Fin 1024 := j 1
  let r := sigm (gi (ix2 0 ⟨q.val, by omega⟩) + gh (ix2 0 ⟨q.val, by omega⟩))
  let z := sigm (gi (ix2 0 ⟨q.val + 1024, by omega⟩) + gh (ix2 0 ⟨q.val + 1024, by omega⟩))
  let n := Ideal.tanh (gi (ix2 0 ⟨q.val + 2048, by omega⟩) + r * gh (ix2 0 ⟨q.val + 2048, by omega⟩))
  (1 - z) * n + z * h0 j

def outLogits (h : Arr 1 1024) (ow : Arr 50257 1024) (ob : Arr 1 50257) : Arr 1 50257 :=
  fun j => (∑ k : Fin 1024, h (ix2 0 k) * ow (ix2 (j 1) k)) + ob j

end Cert.Spec

end
-- ==== Proof.RefAux.lean ====
import Idealize.ShloMosaic.PureOps.Ideal.Laws
import Idealize.ShloMosaic.PureOps.Reduce
import Idealize.ShloMosaic.Lib.Pipeline.Value
import Idealize.ShloMosaic.Lib.IdealHost
import Idealize.ShloMosaic.Lib.ValueIdx
import proofs.«415979_j2018634629437_3_alg».proof.Proof.Spec
import proofs.«415979_j2018634629437_3_alg».proof.Proof.LibGather2

noncomputable section

namespace Cert.RefVal

open Idealize.ShloMosaic Idealize.ShloMosaic.ValueIdx

-- An index of a two-axis shape is determined by its two coordinates.
theorem ix2_ext {a b : Nat} {j : (⟨2, ![a, b]⟩ : Shape).Idx} {p : Fin a} {q : Fin b} (h0 : (j 0).val = p.val)
    (h1 : (j 1).val = q.val) : j = ix2 p q :=
  funext fun c => Fin.ext (by match c with | ⟨0, _⟩ => exact h0 | ⟨1, _⟩ => exact h1)

theorem ix1_ext {a : Nat} {j : (⟨1, ![a]⟩ : Shape).Idx} {p : Fin a} (h0 : (j 0).val = p.val) : j = ix1 p :=
  funext fun c => Fin.ext (by match c with | ⟨0, _⟩ => exact h0)

theorem row_eq {n : Nat} (j : (⟨2, ![1, n]⟩ : Shape).Idx) : j = ix2 (0 : Fin 1) (j 1) := by
  funext a
  match a with
  | ⟨0, _⟩ => exact Fin.ext (by have h : (j 0).val < 1 := (j 0).isLt; show (j 0).val = 0; omega)
  | ⟨1, _⟩ => rfl

theorem one_eq (i : (⟨1, ![1]⟩ : Shape).Idx) : i = ix1 (0 : Fin 1) := by
  funext a
  match a with
  | ⟨0, _⟩ => exact Fin.ext (by have h : (i 0).val < 1 := (i 0).isLt; show (i 0).val = 0; omega)

theorem negInf : Ideal.ofBits .f32 0xFF800000#32 = (⊥ : EReal) := by simp [Ideal.ofBits, Ideal.ieee]

theorem fold_max_eq_sup {ι : Type} [DecidableEq ι] (s : Finset ι) (f : ι → EReal) :
    s.fold max (⊥ : EReal) f = s.sup f := by
  induction s using Finset.induction_on with
  | empty => rfl
  | insert a s ha ih => rw [Finset.fold_insert ha, Finset.sup_insert, ih]

theorem fold_max_negInf {ι : Type} [DecidableEq ι] (s : Finset ι) (f : ι → EReal) :
    s.fold max (Ideal.ofBits .f32 0xFF800000#32) f = s.sup f := by
  rw [negInf]; exact fold_max_eq_sup s f

theorem lift_row (h : (⟨2, ![1, 512]⟩ : Shape).Reduces [1] (⟨1, ![1]⟩ : Shape)) (i : (⟨1, ![1]⟩ : Shape).Idx)
    (k : Fin ((⟨2, ![1, 512]⟩ : Shape).size 1)) : h.lift i k = ix2 (0 : Fin 1) (⟨k.val, k.isLt⟩ : Fin 512) := by
  rw [one_eq i]
  funext c; apply Fin.ext
  match c with
  | ⟨0, _⟩ => rfl
  | ⟨1, _⟩ => rfl

theorem hostMax_row (x : FVec Ideal (⟨2, ![1, 512]⟩ : Shape) .f32) (h' : (⟨2, ![1, 512]⟩ : Shape).ReducesTo [1] (⟨1, ![1]⟩ : Shape))
    (hu : 0 < (⟨0, ![]⟩ : Shape).numel) (i : (⟨1, ![1]⟩ : Shape).Idx) :
    Host.reduce (FloatOps.maximumf (F := Ideal) (φ := .f32)) x (constant (F := Ideal) (⟨0, ![]⟩ : Shape) .f32 0xFF800000#32) h' hu i
      = Spec.rowMax x := by
  have h : (⟨2, ![1, 512]⟩ : Shape).Reduces [1] (⟨1, ![1]⟩ : Shape) := by decide
  rw [Host.reduce_eq_fold_single (FloatOps.maximumf (F := Ideal) (φ := .f32)) x _ h' h hu]
  refine Eq.trans ?_ (fold_max_negInf (Finset.univ : Finset (Fin 512)) fun k => x (ix2 (0 : Fin 1) k))
  have hf : (x ∘ h.lift i) = fun k : Fin 512 => x (ix2 (0 : Fin 1) k) := funext fun k => congrArg x (lift_row h i k)
  exact congrArg (fun f => Finset.fold max (Ideal.ofBits .f32 0xFF800000#32) f (Finset.univ : Finset (Fin 512))) hf

theorem cat_apply (u v : Spec.Arr 1 1024)
    (h : Shape.Concatenates [(⟨2, ![1, 1024]⟩ : Shape), (⟨2, ![1, 1024]⟩ : Shape)] (⟨2, ![1, 2048]⟩ : Shape) 1) (k : Fin 2048) :
    concatenate (⟨2, ![1, 2048]⟩ : Shape) 1 [⟨(⟨2, ![1, 1024]⟩ : Shape), u⟩, ⟨(⟨2, ![1, 1024]⟩ : Shape), v⟩] h (ix2 (0 : Fin 1) k)
      = Spec.catAt u v k := by
  have hk := k.isLt
  unfold Spec.catAt
  by_cases hlt : k.val < 1024
  · rw [dif_pos hlt]
    exact concatenate_pair_apply_left 1 u v h _ rfl (ix2 (0 : Fin 1) (⟨k.val, hlt⟩ : Fin 1024))
      (fun b => by match b with | ⟨0, _⟩ => rfl | ⟨1, _⟩ => rfl)
  · rw [dif_neg hlt]
    exact concatenate_pair_apply_right 1 u v h _ rfl rfl (ix2 (0 : Fin 1) (⟨k.val - 1024, by omega⟩ : Fin 1024))
      (fun b hb => by
        match b, hb with
        | ⟨0, _⟩, _ => rfl
        | ⟨1, _⟩, hb => exact absurd (Fin.ext rfl) hb)
      (by show (k.val - 1024) + 1024 = k.val; omega)

def tokenWord (x0 : (⟨1, ![1]⟩ : Shape).Idx → BitVec 32) : BitVec 32 :=
  Scalar.select (IntOp.cmpi .slt (x0 (ix1 (0 : Fin 1))) 0#32) (IntOp.addi (x0 (ix1 (0 : Fin 1))) 50257#32) (x0 (ix1 (0 : Fin 1)))

def refRow (x0 : (⟨1, ![1]⟩ : Shape).Idx → BitVec 32) : Fin 50257 :=
  IndexOpsLib.clampRow 50257 (by decide) (tokenWord x0)

def e (x0 : (⟨1, ![1]⟩ : Shape).Idx → BitVec 32) (x3 : Spec.Arr 50257 1024) : Spec.Arr 1 1024 :=
  fun j => x3 (ix2 (refRow x0) (j 1))

def h0 (x1 : (⟨3, ![1, 1, 1024]⟩ : Shape).Idx → EReal) : Spec.Arr 1 1024 := fun j => x1 (ix3 (0 : Fin 1) (0 : Fin 1) (j 1))

def b2 {n : Nat} (b : (⟨1, ![n]⟩ : Shape).Idx → EReal) : Spec.Arr 1 n := fun j => b (ix1 (j 1))

section Composition
variable (x0 : (⟨1, ![1]⟩ : Shape).Idx → BitVec 32) (x1 : (⟨3, ![1, 1, 1024]⟩ : Shape).Idx → EReal)
  (x2 : Spec.Arr 512 1024) (x3 : Spec.Arr 50257 1024) (x4 : Spec.Arr 512 2048) (x5 : (⟨1, ![512]⟩ : Shape).Idx → EReal)
  (x6 : Spec.Arr 1024 2048) (x7 : (⟨1, ![1024]⟩ : Shape).Idx → EReal) (x8 x9 : Spec.Arr 3072 1024)
  (x10 x11 : (⟨1, ![3072]⟩ : Shape).Idx → EReal)

def lg : Spec.Arr 1 512 := Spec.logits (e x0 x3) (h0 x1) x4 (b2 x5)

def p : Spec.Arr 1 512 := Spec.softmax (lg x0 x1 x3 x4 x5)

def g : Spec.Arr 1 1024 := Spec.cellIn (e x0 x3) (Spec.ctx (p x0 x1 x3 x4 x5) x2) x6 (b2 x7)

def gi : Spec.Arr 1 3072 := Spec.gates (g x0 x1 x2 x3 x4 x5 x6 x7) x8 (b2 x10)

def gh : Spec.Arr 1 3072 := Spec.gates (h0 x1) x9 (b2 x11)

def h1 : Spec.Arr 1 1024 := Spec.newState (gi x0 x1 x2 x3 x4 x5 x6 x7 x8 x10) (gh x1 x9 x11) (h0 x1)

end Composition

end Cert.RefVal

end
-- ==== Proof.KI.Val0.lean ====
import proofs.«415979_j2018634629437_3_alg».proof.Proof.KI.Reg0
import proofs.«415979_j2018634629437_3_alg».proof.Proof.RefAux

set_option maxRecDepth 16384

noncomputable section

namespace Cert.KernelIdeal.Hand

open Cert.KernelIdeal Cert.KernelIdeal.Gen
open Cert.RefVal (row_eq one_eq lift_row cat_apply fold_max_negInf negInf)
open Idealize.ShloMosaic Idealize.ShloMosaic.TcCoe Idealize.ShloMosaic.ValueIdx
open Idealize.SL.Sem
open Idealize.ShloMosaic.Pipeline (Dat Cfg Window)

/-- A product against the transpose of the right operand, added to zero: entry (m, n) is the sum over the contracted coordinate. -/
theorem matmulT_apply {M K N : Nat} (a : FVec Ideal ⟨2, ![M, K]⟩ .f32) (b : FVec Ideal ⟨2, ![N, K]⟩ .f32) (m : Fin M) (n : Fin N) :
    FloatOps.matmul (DotDims.transposedRhs M K N) none a b (constant ⟨2, ![M, N]⟩ .f32 0x00000000#32) (ix2 m n)
      = ∑ k : Fin K, a (ix2 m k) * b (ix2 n k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  exact congrArg₂ (· * ·) (congrArg a (Shape.idx_ext₂ rfl hk)) (congrArg b (Shape.idx_ext₂ rfl hk))

/-- The same against the right operand itself. -/
theorem matmulP_apply {M K N : Nat} (a : FVec Ideal ⟨2, ![M, K]⟩ .f32) (b : FVec Ideal ⟨2, ![K, N]⟩ .f32) (m : Fin M) (n : Fin N) :
    FloatOps.matmul (DotDims.plain M K N) none a b (constant ⟨2, ![M, N]⟩ .f32 0x00000000#32) (ix2 m n)
      = ∑ k : Fin K, a (ix2 m k) * b (ix2 k n) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg a (Shape.idx_ext₂ rfl hk)) (congrArg b (Shape.idx_ext₂ hk rfl))

theorem row_ext {N : Nat} {f g : Cert.Spec.Arr 1 N} (h : ∀ q : Fin N, f (ix2 0 q) = g (ix2 0 q)) : f = g :=
  funext fun j => row_eq j ▸ h (j 1)

theorem zoff (n y : Nat) : 0 * n + 1 * y = y := by omega

namespace Val0

def rowOf (x : Vec Ideal S1x1x1024 .f32) : Cert.Spec.Arr 1 1024 := fun j => x (ix3 0 0 (j 1))

theorem dropUnit_eq (x : Vec Ideal S1x1x1024 .f32) : shapeCast S1x1024 x shapeCasts_S1x1x1024_S1x1024 = rowOf x :=
  row_ext fun q => (shapeCast_dropUnit_apply ![1, 1024] x _ (ix2 0 q)).trans (congrArg x (funext fun a =>
    match a with
    | ⟨0, _⟩ => rfl
    | ⟨1, _⟩ => rfl
    | ⟨2, _⟩ => rfl))

theorem pay1_eq (x0 : Vec Ideal S1x1x1024 .f32) : k0_pay1 x0 = rowOf x0 :=
  (congrArg (shapeCast S1x1024 · shapeCasts_S1x1x1024_S1x1024) (shapeCast_self x0 _)).trans (dropUnit_eq x0)

theorem rowSum_apply (src : FVec Ideal S1x512 .f32) (hφ : FKind.Formats .f32) (hacc : (0x00000000#32 : BitVec 32) = 0x00000000#32) (j : S1.Idx) :
    multiReduction .add [1] S1 src 0x00000000#32 reduces_S1x512_S1 hφ hacc j = ∑ k : Fin 512, src (ix2 0 k) :=
  (Ideal.multiReduction_add_single src _ reduces_S1x512_S1 hφ hacc j).trans
    (Finset.sum_congr rfl fun k _ => congrArg src (lift_row _ j k))

theorem rowMax_apply (src : FVec Ideal S1x512 .f32) (hφ : FKind.Formats .f32) (hacc : (0xFF800000#32 : BitVec 32) = 0xFF800000#32) (j : S1.Idx) :
    multiReduction .maximumf [1] S1 src 0xFF800000#32 reduces_S1x512_S1 hφ hacc j = Cert.Spec.rowMax src := by
  refine (Ideal.multiReduction_maximumf_single src _ reduces_S1x512_S1 hφ hacc j).trans ?_
  rw [show (src ∘ reduces_S1x512_S1.lift j) = fun k : Fin 512 => src (ix2 0 k) from funext fun k => congrArg src (lift_row _ j k)]
  exact fold_max_negInf _ _

theorem bcastCol_apply (v : FVec Ideal S1 .f32) (j : S1x512.Idx) :
    broadcastTo S1x512 (shapeCast S1x1 v shapeCasts_S1_S1x1) broadcasts_S1x1_S1x512 j = v (ix1 0) :=
  (broadcastTo_apply _ broadcasts_S1x1_S1x512 j (ix2 0 0) fun a =>
    match a with
    | ⟨0, _⟩ => rfl
    | ⟨1, _⟩ => rfl).trans
    ((shapeCast_addUnit_apply ![1] v shapeCasts_S1_S1x1 (ix2 0 0)).trans (congrArg v (one_eq _)))

variable (x0 x1 : Vec Ideal S1x1x1024 .f32) (x2 : Vec Ideal S512x1024 .f32) (x3 : Vec Ideal S512x2048 .f32) (x4 : Vec Ideal S1x512 .f32)
  (x5 : Vec Ideal S1024x2048 .f32) (x6 : Vec Ideal S1x1024 .f32)

def logitsK : FVec Ideal S1x512 .f32 :=
  addf (matmul (φ₁ := .f32) (φ₂ := .f32) dot_S1x2048_S512x2048_S1x512_1_1_0_0_n_n none
      (concatenate S1x2048 1 [⟨S1x1024, k0_pay1 x0⟩, ⟨S1x1024, shapeCast S1x1024 x1 shapeCasts_S1x1x1024_S1x1024⟩] concatenates_S1x1024_S1x1024_S1x2048_d1)
      x3 (constant S1x512 .f32 0x00000000#32))
    (shapeCast S1x512 x4 shapeCasts_S1x512_S1x512)

def maxK (l : FVec Ideal S1x512 .f32) : FVec Ideal S1x512 .f32 :=
  broadcastTo S1x512 (shapeCast S1x1 (maximumf (broadcast S1 (Scalar.ofBits .f32 0xFF800000#32))
    (multiReduction .maximumf [1] S1 l 0xFF800000#32 reduces_S1x512_S1 (.inl rfl) rfl)) shapeCasts_S1_S1x1) broadcasts_S1x1_S1x512

def softmaxK (l : FVec Ideal S1x512 .f32) : FVec Ideal S1x512 .f32 :=
  have v17 : FVec Ideal S1x512 .f32 := exp (subf l (maxK l))
  have v18 : FVec Ideal S1 .f32 := multiReduction .add [1] S1 v17 0x00000000#32 reduces_S1x512_S1 (.inl rfl) rfl
  divf v17 (broadcastTo S1x512 (shapeCast S1x1 v18 shapeCasts_S1_S1x1) broadcasts_S1x1_S1x512)

theorem maxK_apply (l : FVec Ideal S1x512 .f32) (j : S1x512.Idx) : maxK l j = Cert.Spec.rowMax l := by
  unfold maxK
  rw [bcastCol_apply, maximumf_apply, rowMax_apply, broadcast_apply]
  show max (Ideal.ofBits .f32 0xFF800000#32) _ = _
  rw [negInf]
  exact max_eq_right bot_le

theorem logitsK_eq : logitsK x0 x1 x3 x4 = Cert.Spec.logits (rowOf x0) (rowOf x1) x3 x4 := by
  refine row_ext fun n => ?_
  unfold logitsK
  rw [addf_apply, shapeCast_self, pay1_eq, dropUnit_eq]
  exact congrArg (· + x4 (ix2 0 n)) ((matmulT_apply _ x3 0 n).trans
    (Finset.sum_congr rfl fun k _ => congrArg (· * x3 (ix2 n k)) (cat_apply _ _ _ k)))

theorem softmaxK_eq (l : FVec Ideal S1x512 .f32) : softmaxK l = Cert.Spec.softmax l := by
  funext j
  unfold softmaxK Cert.Spec.softmax
  dsimp only
  rw [divf_apply, bcastCol_apply, rowSum_apply]
  show Ideal.div (Ideal.exp (l j - _)) (∑ k : Fin 512, Ideal.exp (l (ix2 0 k) - _)) = _
  simp only [maxK_apply]

theorem pay2_eq : k0_pay2 x0 x1 x3 x4 = Cert.Spec.softmax (Cert.Spec.logits (rowOf x0) (rowOf x1) x3 x4) :=
  (softmaxK_eq (logitsK x0 x1 x3 x4)).trans (congrArg Cert.Spec.softmax (logitsK_eq x0 x1 x3 x4))

theorem pay3_eq :
    k0_pay3 x0 x1 x3 x4 x2 x5 x6
      = Cert.Spec.cellIn (rowOf x0) (Cert.Spec.ctx (Cert.Spec.softmax (Cert.Spec.logits (rowOf x0) (rowOf x1) x3 x4)) x2) x5 x6 := by
  refine row_ext fun n => ?_
  unfold k0_pay3
  rw [maximumf_apply, addf_apply, shapeCast_self, broadcast_apply, pay1_eq, pay2_eq,
    show matmul dot_S1x512_S512x1024_S1x1024_1_0_0_1_n_n none _ x2 (constant (F := Ideal) S1x1024 .f32 0x00000000#32) = Cert.Spec.ctx _ x2 from
      row_ext fun q => matmulP_apply _ x2 0 q]
  refine congrArg₂ max (congrArg (· + x6 (ix2 0 n)) ((matmulT_apply _ x5 0 n).trans
    (Finset.sum_congr rfl fun k _ => congrArg (· * x5 (ix2 n k)) (cat_apply _ _ _ k)))) Ideal.ofBits_zero_f32

theorem hz3 : (![0, 0, 0] : Fin 3 → Nat) = fun _ => 0 := funext fun a => by fin_cases a <;> rfl
theorem hz2 : (![0, 0] : Fin 2 → Nat) = fun _ => 0 := funext fun a => by fin_cases a <;> rfl

theorem out0_8_eq : out0_8 x0 x1 x3 x4 = k0_pay2 x0 x1 x3 x4 := by
  unfold out0_8
  rw [View.canon_unit_zero hz2]
  simp only [View.ld_unit_zero (S := S1x1x1024) hz3, View.ld_unit_zero (S := S512x2048) hz2, View.ld_unit_zero (S := S1x512) hz2]
theorem out0_7_eq :
    out0_7 x0 x1 x2 x3 x4 x5 x6 = k0_pay3 x0 x1 x3 x4 x2 x5 x6 := by
  unfold out0_7
  rw [View.canon_unit_zero hz2]
  simp only [View.ld_unit_zero (S := S1x1x1024) hz3, View.ld_unit_zero (S := S512x2048) hz2, View.ld_unit_zero (S := S1x512) hz2,
    View.ld_unit_zero (S := S512x1024) hz2, View.ld_unit_zero (S := S1024x2048) hz2, View.ld_unit_zero (S := S1x1024) hz2]

section Blocks

variable (V : (c : Dev nD) → (b : Ref sig .tc) → Buf (Elt Ideal) ((c : Thread nD τ).loc b))
variable (a0 : (pcfg0 (F := Ideal)).Adm) (c : Dev nD) (t : Fin (cfg0 a0).N)

theorem iblk0_1 : iblk0 V a0 c 1 t = (V c main_arg1 : S1x1x1024.Idx → EReal) :=
  funext fun y => congrArg (V c main_arg1) (funext fun a => Fin.ext (match a with
    | ⟨0, _⟩ => zoff 1 _
    | ⟨1, _⟩ => zoff 1 _
    | ⟨2, _⟩ => zoff 1024 _))
theorem iblk0_2 : iblk0 V a0 c 2 t = (V c main_arg2 : S512x1024.Idx → EReal) :=
  funext fun y => congrArg (V c main_arg2) (Shape.idx_ext₂ (zoff 512 _) (zoff 1024 _))
theorem iblk0_3 : iblk0 V a0 c 3 t = (V c main_arg4 : S512x2048.Idx → EReal) :=
  funext fun y => congrArg (V c main_arg4) (Shape.idx_ext₂ (zoff 512 _) (zoff 2048 _))
theorem iblk0_4 : iblk0 V a0 c 4 t = (V c main_v2 : S1x512.Idx → EReal) :=
  funext fun y => congrArg (V c main_v2) (Shape.idx_ext₂ (zoff 1 _) (zoff 512 _))
theorem iblk0_5 : iblk0 V a0 c 5 t = (V c main_arg6 : S1024x2048.Idx → EReal) :=
  funext fun y => congrArg (V c main_arg6) (Shape.idx_ext₂ (zoff 1024 _) (zoff 2048 _))
theorem iblk0_6 : iblk0 V a0 c 6 t = (V c main_v3 : S1x1024.Idx → EReal) :=
  funext fun y => congrArg (V c main_v3) (Shape.idx_ext₂ (zoff 1 _) (zoff 1024 _))
theorem emb0_7 (y : S1x1024.Idx) : (((cfg0 a0).win 7).blk t).view.emb y = y :=
  Shape.idx_ext₂ (zoff 1 _) (zoff 1024 _)
theorem emb0_8 (y : S1x512.Idx) : (((cfg0 a0).win 8).blk t).view.emb y = y :=
  Shape.idx_ext₂ (zoff 1 _) (zoff 512 _)

abbrev embRow (r : Fin 50257) : Cert.Spec.Arr 1 1024 := fun j => (V c main_v1) (ix3 r 0 (j 1))

abbrev attnW (r : Fin 50257) : Cert.Spec.Arr 1 512 :=
  Cert.Spec.softmax (Cert.Spec.logits (embRow V c r) (fun j => (V c main_arg1) (ix3 0 0 (j 1))) (V c main_arg4) (V c main_v2))

abbrev cellW (r : Fin 50257) : Cert.Spec.Arr 1 1024 :=
  Cert.Spec.cellIn (embRow V c r) (Cert.Spec.ctx (attnW V c r) (V c main_arg2)) (V c main_arg6) (V c main_v3)

variable (r : Fin 50257) (hrow : ∀ i : grid0.Coords, cc0_transform_0 inb_S1_S1_0 numel1_S1 a0.1 i 0 = r.val)
include hrow

theorem row_iblk0_0 : rowOf (iblk0 V a0 c 0 t) = embRow V c r :=
  funext fun j => congrArg (V c main_v1) (funext fun a => Fin.ext (match a with
    | ⟨0, _⟩ => show cc0_transform_0 inb_S1_S1_0 numel1_S1 a0.1 (grid0.coords t) 0 * 1 + 1 * 0 = r.val by rw [hrow]; omega
    | ⟨1, _⟩ => zoff 1 0
    | ⟨2, _⟩ => zoff 1024 _))

theorem attn8 :
    Cert.Spec.softmax (Cert.Spec.logits (rowOf (iblk0 V a0 c 0 t)) (rowOf (iblk0 V a0 c 1 t)) (iblk0 V a0 c 3 t) (iblk0 V a0 c 4 t)) = attnW V c r :=
  congrArg Cert.Spec.softmax (congr (congr (congrArg₂ Cert.Spec.logits (row_iblk0_0 V a0 c t r hrow) (congrArg rowOf (iblk0_1 V a0 c t)))
    (iblk0_3 V a0 c t)) (iblk0_4 V a0 c t))

theorem after8 : (dat0 V a0 c).after 8 t = attnW V c r :=
  (after0_8 V a0 c t).trans <| (out0_8_eq _ _ _ _).trans <| (pay2_eq _ _ _ _).trans (attn8 V a0 c t r hrow)

theorem after7 : (dat0 V a0 c).after 7 t = cellW V c r :=
  (after0_7 V a0 c t).trans <| (out0_7_eq _ _ _ _ _ _ _).trans <| (pay3_eq _ _ _ _ _ _ _).trans
    (congr (congr (congrArg₂ Cert.Spec.cellIn (row_iblk0_0 V a0 c t r hrow) (congrArg₂ Cert.Spec.ctx (attn8 V a0 c t r hrow) (iblk0_2 V a0 c t)))
      (iblk0_5 V a0 c t)) (iblk0_6 V a0 c t))

theorem attn_eq :
    (dat0 (F := Ideal) V a0 c).arrAt 8 (cfg0 a0).N
      = Cert.Spec.softmax (Cert.Spec.logits (fun j => (V c main_v1) (ValueIdx.ix3 r 0 (j 1))) (fun j => (V c main_arg1) (ValueIdx.ix3 0 0 (j 1)))
          (V c main_arg4) (V c main_v2)) :=
  (dat0 V a0 c).arrAt_eq_of_cover 8 (attnW V c r)
    (fun t _ => (congrArg (((cfg0 a0).win 8).cut (grid0.coords t)) (after8 V a0 c t r hrow)).trans
      (funext fun y => congrArg (attnW V c r) (emb0_8 a0 t y).symm))
    fun i => ⟨t0_0, rfl, emb0_8 a0 t0_0 i ▸ (((cfg0 a0).win 8).blk t0_0).view.emb_mem_set i⟩

theorem cell_eq :
    (dat0 (F := Ideal) V a0 c).arrAt 7 (cfg0 a0).N
      = Cert.Spec.cellIn (fun j => (V c main_v1) (ValueIdx.ix3 r 0 (j 1)))
          (Cert.Spec.ctx (Cert.Spec.softmax (Cert.Spec.logits (fun j => (V c main_v1) (ValueIdx.ix3 r 0 (j 1))) (fun j => (V c main_arg1) (ValueIdx.ix3 0 0 (j 1)))
            (V c main_arg4) (V c main_v2))) (V c main_arg2)) (V c main_arg6) (V c main_v3) :=
  (dat0 V a0 c).arrAt_eq_of_cover 7 (cellW V c r)
    (fun t _ => (congrArg (((cfg0 a0).win 7).cut (grid0.coords t)) (after7 V a0 c t r hrow)).trans
      (funext fun y => congrArg (cellW V c r) (emb0_7 a0 t y).symm))
    fun i => ⟨t0_0, rfl, emb0_7 a0 t0_0 i ▸ (((cfg0 a0).win 7).blk t0_0).view.emb_mem_set i⟩

end Blocks

end Val0

end Cert.KernelIdeal.Hand

end
-- ==== Proof.KI.Val2.lean ====
import proofs.«415979_j2018634629437_3_alg».proof.Proof.KI.Reg2N
import proofs.«415979_j2018634629437_3_alg».proof.Proof.KI.Val0

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open Idealize.ShloMosaic.Pipeline (Dat Cfg Window)

theorem pay2_apply (x0 : FVec Ideal S1x1024 .f32) (x1 : FVec Ideal S4096x1024 .f32) (x2 : FVec Ideal S1x4096 .f32) (q : Fin 4096) :
    k2_pay1 (F := Ideal) x0 x1 x2 (ix2 (0 : Fin 1) q)
      = (∑ k : Fin 1024, x0 (ix2 (0 : Fin 1) k) * x1 (ix2 q k)) + x2 (ix2 (0 : Fin 1) q) := by
  unfold k2_pay1
  simp only [shapeCast_self]
  exact congrArg (· + x2 (ix2 0 q)) (matmulT_apply x0 x1 0 q)

theorem payLocal2_ideal : PayLocal2 Ideal := fun x0 x1 x1' x2 x2' q h1 h2 => by
  rw [pay2_apply, pay2_apply, h2]
  exact congrArg (· + x2' (ix2 (0 : Fin 1) q)) (Finset.sum_congr rfl fun k _ => by rw [h1 k])

variable (V : (c : Dev nD) → (b : Ref sig .tc) → Buf (Elt Ideal) ((c : Thread nD τ).loc b))

theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

theorem xsize_facts2 : ∀ t : Fin cfg2.N, win2_3.xsize (grid2.coords t) (0 : Fin 2) = 1
    ∧ ((t.val < 12 ∧ win2_3.xsize (grid2.coords t) (1 : Fin 2) = 4096) ∨ (t.val = 12 ∧ win2_3.xsize (grid2.coords t) (1 : Fin 2) = 1105)) :=
  (by decide +kernel : ∀ t : Fin grid2.N, _)

theorem flushed2_eq (c : Dev nD) (t : Fin cfg2.N) :
    (dat2 (F := Ideal) V c).flushed 3 t
      = ((cfg2.win 3).blk t).view.read (Elt Ideal) (Cert.Spec.outLogits (V c main_v37) (V c main_arg12) (V c main_v6)) := by
  show (cfg2.win 3).cut (grid2.coords t) ((dat2 V c).after 3 t) = _
  rw [after2_3]
  funext y
  obtain ⟨e0, e1, e2, e3, e4, e5, e6, e7⟩ := idx_facts2 t
  have hy1 : (y 1).val < win2_3.xsize (grid2.coords t) 1 := (y 1).isLt
  have hq : (y 1).val < 4096 := Nat.lt_of_lt_of_le hy1 (win2_3.xsize_le _ 1)
  have hy0 : (y 0).val = 0 := by
    have h := Nat.lt_of_lt_of_le (y 0).isLt (win2_3.xsize_le (grid2.coords t) 0)
    have h1 : win2_3.size 0 = 1 := rfl
    omega
  have hw : ∀ k : Fin 1024, win2_1.moved (grid2.coords t) (ix2 (⟨(y 1).val, hq⟩ : Fin 4096) k) = true := fun k =>
    (win2_1.moved_iff _ _).mpr fun a =>
      match a with
      | ⟨0, _⟩ => (xsize2_rows _).symm ▸ hy1
      | ⟨1, _⟩ => (xsize2_cols _).symm ▸ k.isLt
  have hb : win2_2.moved (grid2.coords t) (ix2 (0 : Fin 1) (⟨(y 1).val, hq⟩ : Fin 4096)) = true :=
    (win2_2.moved_iff _ _).mpr fun a =>
      match a with
      | ⟨0, _⟩ => (xsize2_unit _).symm ▸ Nat.one_pos
      | ⟨1, _⟩ => (xsize2_bias _).symm ▸ hy1
  show out2_3 (iblk2 V c 0 t) (wblk2 V c t) (bblk2 V c t) (win2_3.xinj (grid2.coords t) y)
    = Cert.Spec.outLogits (V c main_v37) (V c main_arg12) (V c main_v6) (((cfg2.win 3).blk t).view.emb y)
  rw [show win2_3.xinj (grid2.coords t) y = ix2 (0 : Fin 1) (⟨(y 1).val, hq⟩ : Fin 4096) from Shape.idx_ext₂ hy0 rfl]
  unfold out2_3 wblk2 bblk2 Window.fill
  rw [pay2_apply, dif_pos hb]
  refine congrArg₂ (· + ·) (Finset.sum_congr rfl fun k _ => congrArg₂ (· * ·) ?_ ?_) ?_
  · exact congrArg (V c main_v37) (Shape.idx_ext₂ (by show win2_0.index t 0 * 1 + 1 * 0 = 0; omega)
      (by show win2_0.index t 1 * 1024 + 1 * k.val = k.val; omega))
  · rw [dif_pos (hw k)]
    exact congrArg (V c main_arg12) (Shape.idx_ext₂ (by show win2_1.index t 0 * 4096 + 1 * (y 1).val = win2_3.index t 1 * 4096 + 1 * (y 1).val; omega)
      (by show win2_1.index t 1 * 1024 + 1 * k.val = k.val; omega))
  · exact congrArg (V c main_v6) (Shape.idx_ext₂ (by show win2_2.index t 0 * 1 + 1 * 0 = win2_3.index t 0 * 1 + 1 * (y 0).val; omega)
      (by show win2_2.index t 1 * 4096 + 1 * (y 1).val = win2_3.index t 1 * 4096 + 1 * (y 1).val; omega))

theorem covered2_3 (i : S1x50257.Idx) :
    ∃ t : Fin cfg2.N, (cfg2.win 3).flush t = true ∧ i ∈ ((cfg2.win 3).blk t).view.set := by
  have hi0 := idx2_lt0 i; have hi1 := idx2_lt1 i
  obtain ⟨t, ht⟩ : ∃ t : Fin cfg2.N, t.val = (i 1).val / 4096 := ⟨⟨(i 1).val / 4096, by show _ < grid2.N; rw [N_2]; omega⟩, rfl⟩
  refine ⟨t, flush2_3 t, ?_⟩
  show i ∈ ((View.whole main_v39).slice (win2_3.rect t)).set
  rw [View.set_slice_whole, Rect.mem_set_unit]
  obtain ⟨-, -, -, -, -, -, e6, e7⟩ := idx_facts2 t
  obtain ⟨x0, x1⟩ := xsize_facts2 t
  intro a
  match a with
  | ⟨0, _⟩ =>
    show win2_3.index t (0 : Fin 2) * 1 ≤ (i 0).val ∧ (i 0).val < win2_3.index t (0 : Fin 2) * 1 + win2_3.xsize (grid2.coords t) (0 : Fin 2)
    omega
  | ⟨1, _⟩ =>
    show win2_3.index t (1 : Fin 2) * 4096 ≤ (i 1).val ∧ (i 1).val < win2_3.index t (1 : Fin 2) * 4096 + win2_3.xsize (grid2.coords t) (1 : Fin 2)
    omega

theorem out_eq (c : Dev nD) :
    (dat2 (F := Ideal) V c).arrAt 3 cfg2.N = Cert.Spec.outLogits (V c main_v37) (V c main_arg12) (V c main_v6) :=
  (dat2 V c).arrAt_eq_of_cover 3 _ (fun t _ => flushed2_eq V c t) covered2_3

end Cert.KernelIdeal.Hand

end
-- ==== Proof.KI.Val1.lean ====
import proofs.«415979_j2018634629437_3_alg».proof.Proof.KI.Reg1
import proofs.«415979_j2018634629437_3_alg».proof.Proof.KI.Val0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

namespace Reg1Val

theorem pay_gates (a : Cert.Spec.Arr 1 1024) (W : Cert.Spec.Arr 3072 1024) (b : Cert.Spec.Arr 1 3072)
    (x0 : Vec Ideal S1x1024 .f32) (x2 : Vec Ideal S1024x1024 .f32) (x4 : Vec Ideal S1x1024 .f32)
    (p : Fin 1) (q : Fin 1024) (j : Fin 3072)
    (h0 : ∀ k : Fin 1024, x0 (ix2 p k) = a (ix2 0 k)) (h2 : ∀ k : Fin 1024, x2 (ix2 q k) = W (ix2 j k)) (h4 : x4 (ix2 p q) = b (ix2 0 j)) :
    out1_6 x0 x2 x4 (ix2 p q) = Cert.Spec.gates a W b (ix2 0 j) := by
  unfold out1_6 k1_pay1
  rw [View.canon_unit_zero Val0.hz2]
  simp only [View.ld_unit_zero (S := S1x1024) Val0.hz2, View.ld_unit_zero (S := S1024x1024) Val0.hz2, shapeCast_self]
  rw [addf_apply, h4]
  exact congrArg (· + b (ix2 0 j)) ((matmulT_apply x0 x2 p q).trans (Finset.sum_congr rfl fun k _ => by rw [h0 k, h2 k]))

theorem blocks_at : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val :=
  (by decide +kernel : ∀ t : Fin grid1.N, _)

def col (t : Fin cfg1.N) (q : Fin 1024) : Fin 3072 :=
  ⟨t.val * 1024 + q.val, by have := lt_of_lt_of_eq t.isLt N_1; have := q.isLt; omega⟩

theorem emb1_6 (t : Fin cfg1.N) (p : Fin 1) (q : Fin 1024) : ((cfg1.win 6).blk t).view.emb (ix2 p q) = ix2 0 (col t q) := by
  obtain ⟨-, -, -, -, -, -, -, -, -, -, -, -, e0, e1, -⟩ := blocks_at t
  have hp := p.isLt
  exact Shape.idx_ext₂ (by show win1_6.index t 0 * 1 + 1 * p.val = 0; omega) (by show win1_6.index t 1 * 1024 + 1 * q.val = t.val * 1024 + q.val; omega)

theorem emb1_7 (t : Fin cfg1.N) (p : Fin 1) (q : Fin 1024) : ((cfg1.win 7).blk t).view.emb (ix2 p q) = ix2 0 (col t q) := by
  obtain ⟨-, -, -, -, -, -, -, -, -, -, -, -, -, -, e0, e1⟩ := blocks_at t
  have hp := p.isLt
  exact Shape.idx_ext₂ (by show win1_7.index t 0 * 1 + 1 * p.val = 0; omega) (by show win1_7.index t 1 * 1024 + 1 * q.val = t.val * 1024 + q.val; omega)

/-- Every column of the output lies in the block of its quotient by the block width. -/
theorem cover_cols {E : Fin cfg1.N → S1x1024.Idx → S1x3072.Idx} (hE : ∀ t p q, E t (ix2 p q) = ix2 0 (col t q)) (i : S1x3072.Idx) :
    ∃ (t : Fin cfg1.N) (y : S1x1024.Idx), E t y = i := by
  have h0 := idx2_lt0 i; have h1 := idx2_lt1 i
  refine ⟨⟨(i 1).val / 1024, by show _ < grid1.N; rw [N_1]; omega⟩, ix2 0 ⟨(i 1).val % 1024, Nat.mod_lt _ (by decide)⟩, (hE _ _ _).trans ?_⟩
  exact Shape.idx_ext₂ (by show 0 = (i 0).val; omega) (by show (i 1).val / 1024 * 1024 + (i 1).val % 1024 = (i 1).val; omega)

variable (V : (c : Dev nD) → (b : Ref sig .tc) → Buf (Elt Ideal) ((c : Thread nD τ).loc b))

theorem flushed6_eq (c : Dev nD) (t : Fin cfg1.N) :
    (dat1 V c).flushed 6 t = ((cfg1.win 6).blk t).view.read (Elt Ideal)
      (Cert.Spec.gates (V c main_v8_0) (V c main_arg8) (V c main_v4)) := by
  show (cfg1.win 6).cut (grid1.coords t) ((dat1 V c).after 6 t) = _
  rw [after1_6]
  funext y
  obtain ⟨p, q, rfl⟩ : ∃ (p : Fin 1) (q : Fin 1024), y = ix2 p q := ⟨y 0, y 1, eq_ix2 y⟩
  obtain ⟨e00, e01, -, -, e20, e21, -, -, e40, e41, -⟩ := blocks_at t
  have hp := p.isLt
  show out1_6 (iblk1 V c 0 t) (iblk1 V c 2 t) (iblk1 V c 4 t) (ix2 p q) = Cert.Spec.gates _ _ _ (((cfg1.win 6).blk t).view.emb (ix2 p q))
  rw [emb1_6]
  exact pay_gates _ _ _ _ _ _ p q _
    (fun k => congrArg (V c main_v8_0) (Shape.idx_ext₂ (by show win1_0.index t 0 * 1 + 1 * p.val = 0; omega)
      (by show win1_0.index t 1 * 1024 + 1 * k.val = k.val; omega)))
    (fun k => congrArg (V c main_arg8) (Shape.idx_ext₂ (by show win1_2.index t 0 * 1024 + 1 * q.val = t.val * 1024 + q.val; omega)
      (by show win1_2.index t 1 * 1024 + 1 * k.val = k.val; omega)))
    (congrArg (V c main_v4) (Shape.idx_ext₂ (by show win1_4.index t 0 * 1 + 1 * p.val = 0; omega)
      (by show win1_4.index t 1 * 1024 + 1 * q.val = t.val * 1024 + q.val; omega)))

theorem flushed7_eq (c : Dev nD) (t : Fin cfg1.N) :
    (dat1 V c).flushed 7 t = ((cfg1.win 7).blk t).view.read (Elt Ideal)
      (Cert.Spec.gates (V c main_v7) (V c main_arg9) (V c main_v5)) := by
  show (cfg1.win 7).cut (grid1.coords t) ((dat1 V c).after 7 t) = _
  rw [after1_7]
  funext y
  obtain ⟨p, q, rfl⟩ : ∃ (p : Fin 1) (q : Fin 1024), y = ix2 p q := ⟨y 0, y 1, eq_ix2 y⟩
  obtain ⟨-, -, e10, e11, -, -, e30, e31, -, -, e50, e51, -⟩ := blocks_at t
  have hp := p.isLt
  show out1_6 (iblk1 V c 1 t) (iblk1 V c 3 t) (iblk1 V c 5 t) (ix2 p q) = Cert.Spec.gates _ _ _ (((cfg1.win 7).blk t).view.emb (ix2 p q))
  rw [emb1_7]
  exact pay_gates _ _ _ _ _ _ p q _
    (fun k => congrArg (V c main_v7) (Shape.idx_ext₂ (by show win1_1.index t 0 * 1 + 1 * p.val = 0; omega)
      (by show win1_1.index t 1 * 1024 + 1 * k.val = k.val; omega)))
    (fun k => congrArg (V c main_arg9) (Shape.idx_ext₂ (by show win1_3.index t 0 * 1024 + 1 * q.val = t.val * 1024 + q.val; omega)
      (by show win1_3.index t 1 * 1024 + 1 * k.val = k.val; omega)))
    (congrArg (V c main_v5) (Shape.idx_ext₂ (by show win1_5.index t 0 * 1 + 1 * p.val = 0; omega)
      (by show win1_5.index t 1 * 1024 + 1 * q.val = t.val * 1024 + q.val; omega)))

end Reg1Val

open Reg1Val

variable (V : (c : Dev nD) → (b : Ref sig .tc) → Buf (Elt Ideal) ((c : Thread nD τ).loc b))

theorem gates_i (c : Dev nD) :
    (dat1 (F := Ideal) V c).arrAt 6 cfg1.N = Cert.Spec.gates (V c main_v8_0) (V c main_arg8) (V c main_v4) :=
  (dat1 V c).arrAt_eq_of_cover 6 _ (fun t _ => flushed6_eq V c t) fun i =>
    (cover_cols emb1_6 i).elim fun t ⟨y, h⟩ => ⟨t, flush1_6 t, h ▸ ((cfg1.win 6).blk t).view.emb_mem_set y⟩

theorem gates_h (c : Dev nD) :
    (dat1 (F := Ideal) V c).arrAt 7 cfg1.N = Cert.Spec.gates (V c main_v7) (V c main_arg9) (V c main_v5) :=
  (dat1 V c).arrAt_eq_of_cover 7 _ (fun t _ => flushed7_eq V c t) fun i =>
    (cover_cols emb1_7 i).elim fun t ⟨y, h⟩ => ⟨t, flush1_7 t, h ▸ ((cfg1.win 7).blk t).view.emb_mem_set y⟩

end Cert.KernelIdeal.Hand

end
-- ==== Proof.KI.HostGate.lean ====
import proofs.«415979_j2018634629437_3_alg».proof.Proof.Gen.KernelIdeal.Launch
import proofs.«415979_j2018634629437_3_alg».proof.Proof.Spec
import Idealize.ShloMosaic.Lib.StableHlo.Run
import Idealize.ShloMosaic.Lib.Pipeline.Value
import Idealize.ShloMosaic.Lib.ValueIdx
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx

section

variable {F : FTy → Type} [FloatOps F]

theorem v1_eq (W : Valuation τ sig (Elt F)) :
    (StableHlo.after hostOps0_2 W (Proc.devRef .tc main_v1) : (⟨S50257x1x1024, .f32⟩ : BufTy).Contents (Elt F))
      = shapeCast S50257x1x1024 (W (Proc.devRef .tc main_arg3) : (⟨S50257x1024, .f32⟩ : BufTy).Contents (Elt F))
          shapeCasts_S50257x1024_S50257x1x1024 := by
  after_results
  rfl

theorem v2_eq (W : Valuation τ sig (Elt F)) :
    (StableHlo.after hostOps0_2 W (Proc.devRef .tc main_v2) : (⟨S1x512, .f32⟩ : BufTy).Contents (Elt F))
      = shapeCast S1x512 (W (Proc.devRef .tc main_arg5) : (⟨S512, .f32⟩ : BufTy).Contents (Elt F)) shapeCasts_S512_S1x512 := by
  after_results
  rfl

theorem v3_eq (W : Valuation τ sig (Elt F)) :
    (StableHlo.after hostOps0_2 W (Proc.devRef .tc main_v3) : (⟨S1x1024, .f32⟩ : BufTy).Contents (Elt F))
      = shapeCast S1x1024 (W (Proc.devRef .tc main_arg7) : (⟨S1024, .f32⟩ : BufTy).Contents (Elt F)) shapeCasts_S1024_S1x1024 := by
  after_results
  rfl

theorem v4_eq (W : Valuation τ sig (Elt F)) :
    (StableHlo.after hostOps0_2 W (Proc.devRef .tc main_v4) : (⟨S1x3072, .f32⟩ : BufTy).Contents (Elt F))
      = shapeCast S1x3072 (W (Proc.devRef .tc main_arg10) : (⟨S3072, .f32⟩ : BufTy).Contents (Elt F)) shapeCasts_S3072_S1x3072 := by
  after_results
  rfl

theorem v5_eq (W : Valuation τ sig (Elt F)) :
    (StableHlo.after hostOps0_2 W (Proc.devRef .tc main_v5) : (⟨S1x3072, .f32⟩ : BufTy).Contents (Elt F))
      = shapeCast S1x3072 (W (Proc.devRef .tc main_arg11) : (⟨S3072, .f32⟩ : BufTy).Contents (Elt F)) shapeCasts_S3072_S1x3072 := by
  after_results
  rfl

theorem v6_eq (W : Valuation τ sig (Elt F)) :
    (StableHlo.after hostOps0_2 W (Proc.devRef .tc main_v6) : (⟨S1x50257, .f32⟩ : BufTy).Contents (Elt F))
      = shapeCast S1x50257 (W (Proc.devRef .tc main_arg13) : (⟨S50257, .f32⟩ : BufTy).Contents (Elt F)) shapeCasts_S50257_S1x50257 := by
  after_results
  rfl

theorem v7_eq (W : Valuation τ sig (Elt F)) :
    (StableHlo.after hostOps0_2 W (Proc.devRef .tc main_v7) : (⟨S1x1024, .f32⟩ : BufTy).Contents (Elt F))
      = shapeCast S1x1024 (W (Proc.devRef .tc main_arg1) : (⟨S1x1x1024, .f32⟩ : BufTy).Contents (Elt F)) shapeCasts_S1x1x1024_S1x1024 := by
  after_results
  rfl

theorem v1_apply (W : Valuation τ sig (Elt F)) (r : Fin 50257) (k : Fin 1024) :
    (StableHlo.after hostOps0_2 W (Proc.devRef .tc main_v1) : (⟨S50257x1x1024, .f32⟩ : BufTy).Contents (Elt F)) (ix3 r 0 k)
      = (W (Proc.devRef .tc main_arg3) : (⟨S50257x1024, .f32⟩ : BufTy).Contents (Elt F)) (ix2 r k) := by
  rw [v1_eq]
  refine shapeCast_apply _ _ _ _ ?_
  show ((⟨2, ![50257, 1024]⟩ : Shape).rowMajor (ix2 r k)).val = ((⟨3, ![50257, 1, 1024]⟩ : Shape).rowMajor (ix3 r 0 k)).val
  rw [Shape.rowMajor_val_two, Shape.rowMajor_val_three]
  show r.val * 1024 + k.val = (r.val * 1 + 0) * 1024 + k.val
  omega

end

theorem one_word : Ideal.ofBits .f32 0x3F800000#32 = (1 : EReal) := IdealRules.sign_bit.ideal_onePat .f32

theorem ones_apply (j : S1x1024.Idx) :
    (broadcastInDim S1x1024 ![] bcast_S_S1x1024 (constant (F := Ideal) S_ .f32 0x3F800000#32) : FVec Ideal S1x1024 .f32) j
      = (1 : EReal) := one_word

theorem third_apply (off : Nat) (hoff : off + 1024 ≤ 3072) (x : FVec Ideal S1x3072 .f32)
    (h : S1x3072.Slices ![0, off] S1x1024) (j : (⟨2, ![1, 1024]⟩ : Shape).Idx) :
    extractStridedSlice S1x1024 ![0, off] x h j = x (ix2 0 ⟨(j 1).val + off, by have := idx2_lt1 j; omega⟩) := by
  refine extractStridedSlice_apply _ x h j _ ?_
  intro a
  match a with
  | ⟨0, _⟩ =>
    show (0 : Nat) = 0 + (j 0).val
    have := idx2_lt0 j
    omega
  | ⟨1, _⟩ =>
    show (j 1).val + off = off + (j 1).val
    omega

theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem hostTanh_apply {s : Shape} {φ : FTy} (a : FVec Ideal s φ) (i : s.Idx) : Host.tanh a i = Ideal.tanh (a i) := rfl

def gruTerm (gi gh : FVec Ideal S1x3072 .f32) (h0 : FVec Ideal S1x1024 .f32) : FVec Ideal S1x1024 .f32 :=
  addf
    (mulf
      (subf (broadcastInDim S1x1024 ![] bcast_S_S1x1024 (constant S_ .f32 0x3F800000#32))
        (Host.divf (broadcastInDim S1x1024 ![] bcast_S_S1x1024 (constant S_ .f32 0x3F800000#32))
          (addf (broadcastInDim S1x1024 ![] bcast_S_S1x1024 (constant S_ .f32 0x3F800000#32))
            (Host.exp
              (Host.negf
                (addf (extractStridedSlice S1x1024 ![0, 1024] gi slices_S1x3072_S1x1024_0_1024)
                  (extractStridedSlice S1x1024 ![0, 1024] gh slices_S1x3072_S1x1024_0_1024)))))))
      (Host.tanh
        (addf (extractStridedSlice S1x1024 ![0, 2048] gi slices_S1x3072_S1x1024_0_2048)
          (mulf
            (Host.divf (broadcastInDim S1x1024 ![] bcast_S_S1x1024 (constant S_ .f32 0x3F800000#32))
              (addf (broadcastInDim S1x1024 ![] bcast_S_S1x1024 (constant S_ .f32 0x3F800000#32))
                (Host.exp
                  (Host.negf
                    (addf (extractStridedSlice S1x1024 ![0, 0] gi slices_S1x3072_S1x1024_0_0)
                      (extractStridedSlice S1x1024 ![0, 0] gh slices_S1x3072_S1x1024_0_0))))))
            (extractStridedSlice S1x1024 ![0, 2048] gh slices_S1x3072_S1x1024_0_2048)))))
    (mulf
      (Host.divf (broadcastInDim S1x1024 ![] bcast_S_S1x1024 (constant S_ .f32 0x3F800000#32))
        (addf (broadcastInDim S1x1024 ![] bcast_S_S1x1024 (constant S_ .f32 0x3F800000#32))
          (Host.exp
            (Host.negf
              (addf (extractStridedSlice S1x1024 ![0, 1024] gi slices_S1x3072_S1x1024_0_1024)
                (extractStridedSlice S1x1024 ![0, 1024] gh slices_S1x3072_S1x1024_0_1024))))))
      h0)

theorem gruTerm_eq (gi gh : FVec Ideal S1x3072 .f32) (h0 : FVec Ideal S1x1024 .f32) :
    (gruTerm gi gh h0 : Cert.Spec.Arr 1 1024) = Cert.Spec.newState gi gh h0 := by
  funext j
  unfold gruTerm
  generalize hone : (broadcastInDim S1x1024 ![] bcast_S_S1x1024 (constant S_ .f32 0x3F800000#32) : FVec Ideal S1x1024 .f32) = one
  have h1 : one j = (1 : EReal) := by rw [← hone]; exact ones_apply j
  simp only [addf_apply, mulf_apply, subf_apply, hostDivf_apply, hostExp_apply, hostNegf_apply, hostTanh_apply, h1]
  rw [third_apply 1024 (by omega) gi, third_apply 1024 (by omega) gh, third_apply 2048 (by omega) gi,
    third_apply 2048 (by omega) gh, third_apply 0 (by omega) gi, third_apply 0 (by omega) gh]
  rfl

theorem state_eq (W : Valuation τ sig (Elt Ideal)) :
    (StableHlo.after (hostOps2 (F := Ideal)) W (Proc.devRef .tc main_v37) : Cert.Spec.Arr 1 1024)
      = Cert.Spec.newState (W (Proc.devRef .tc main_v9_0)) (W (Proc.devRef .tc main_v9_1)) (W (Proc.devRef .tc main_v7)) := by
  have e : (StableHlo.after (hostOps2 (F := Ideal)) W (Proc.devRef .tc main_v37) : FVec Ideal S1x1024 .f32)
      = gruTerm (W (Proc.devRef .tc main_v9_0)) (W (Proc.devRef .tc main_v9_1)) (W (Proc.devRef .tc main_v7)) := by
    after_results_simp
    rfl
  exact e.trans (gruTerm_eq _ _ _)

theorem state3_eq (W : Valuation τ sig (Elt Ideal)) :
    (StableHlo.after (hostOps2 (F := Ideal)) W (Proc.devRef .tc main_v38) : (⟨3, ![1, 1, 1024]⟩ : Shape).Idx → EReal)
      = fun i => Cert.Spec.newState (W (Proc.devRef .tc main_v9_0)) (W (Proc.devRef .tc main_v9_1))
          (W (Proc.devRef .tc main_v7)) (ix2 0 (i 2)) := by
  have e : (StableHlo.after (hostOps2 (F := Ideal)) W (Proc.devRef .tc main_v38) : FVec Ideal S1x1x1024 .f32)
      = shapeCast S1x1x1024
          (gruTerm (W (Proc.devRef .tc main_v9_0)) (W (Proc.devRef .tc main_v9_1)) (W (Proc.devRef .tc main_v7)))
          shapeCasts_S1x1024_S1x1x1024 := by
    after_results_simp
    rfl
  refine e.trans ?_
  funext i
  rw [← gruTerm_eq]
  refine shapeCast_apply _ _ _ _ ?_
  show ((⟨2, ![1, 1024]⟩ : Shape).rowMajor (ix2 0 (i 2))).val = ((⟨3, ![1, 1, 1024]⟩ : Shape).rowMajor i).val
  rw [Shape.rowMajor_val_two, Shape.rowMajor_val_three]
  have h0 : (i 0).val = 0 := by
    have : (i 0).val < 1 := (i 0).isLt
    omega
  have h1 : (i 1).val = 0 := by
    have : (i 1).val < 1 := (i 1).isLt
    omega
  show 0 * 1024 + (i 2).val = ((i 0).val * 1 + (i 1).val) * 1024 + (i 2).val
  rw [h0, h1]

end Cert.KernelIdeal.Hand

end
-- ==== Proof.KI.Value.lean ====
import proofs.«415979_j2018634629437_3_alg».proof.Proof.KI.Keep
import proofs.«415979_j2018634629437_3_alg».proof.Proof.KI.Run
import proofs.«415979_j2018634629437_3_alg».proof.Proof.KI.Ok
import proofs.«415979_j2018634629437_3_alg».proof.Proof.KI.Val0
import proofs.«415979_j2018634629437_3_alg».proof.Proof.KI.Val1
import proofs.«415979_j2018634629437_3_alg».proof.Proof.KI.Val2
import proofs.«415979_j2018634629437_3_alg».proof.Proof.KI.HostPre
import proofs.«415979_j2018634629437_3_alg».proof.Proof.KI.HostGate
import Idealize.ShloMosaic.Lib.ValueLayout
import proofs.«415979_j2018634629437_3_alg».proof.Proof.RefAux
import proofs.«415979_j2018634629437_3_alg».proof.Proof.RowIndex

set_option maxRecDepth 16384

noncomputable section

namespace Cert.KernelIdeal.Hand

open Cert.KernelIdeal Cert.KernelIdeal.Gen
open Idealize.ShloMosaic Idealize.ShloMosaic.TcCoe
open Idealize.SL.Sem

section Value

open Idealize.ShloMosaic.ValueIdx

variable (m : (ℓ : Loc nD τ sig) → Buf (Elt Ideal) ℓ) (hok : ok0 (tbl m)) (c : Dev nD)

abbrev A0 : (⟨1, ![1]⟩ : Shape).Idx → BitVec 32 := m ((c : Thread nD τ).loc main_arg0)
abbrev A1 : (⟨3, ![1, 1, 1024]⟩ : Shape).Idx → EReal := m ((c : Thread nD τ).loc main_arg1)
abbrev A2 : Cert.Spec.Arr 512 1024 := m ((c : Thread nD τ).loc main_arg2)
abbrev A3 : Cert.Spec.Arr 50257 1024 := m ((c : Thread nD τ).loc main_arg3)
abbrev A4 : Cert.Spec.Arr 512 2048 := m ((c : Thread nD τ).loc main_arg4)
abbrev A5 : (⟨1, ![512]⟩ : Shape).Idx → EReal := m ((c : Thread nD τ).loc main_arg5)
abbrev A6 : Cert.Spec.Arr 1024 2048 := m ((c : Thread nD τ).loc main_arg6)
abbrev A7 : (⟨1, ![1024]⟩ : Shape).Idx → EReal := m ((c : Thread nD τ).loc main_arg7)
abbrev A8 : Cert.Spec.Arr 3072 1024 := m ((c : Thread nD τ).loc main_arg8)
abbrev A9 : Cert.Spec.Arr 3072 1024 := m ((c : Thread nD τ).loc main_arg9)
abbrev A10 : (⟨1, ![3072]⟩ : Shape).Idx → EReal := m ((c : Thread nD τ).loc main_arg10)
abbrev A11 : (⟨1, ![3072]⟩ : Shape).Idx → EReal := m ((c : Thread nD τ).loc main_arg11)
abbrev A12 : Cert.Spec.Arr 50257 1024 := m ((c : Thread nD τ).loc main_arg12)
abbrev A13 : (⟨1, ![50257]⟩ : Shape).Idx → EReal := m ((c : Thread nD τ).loc main_arg13)

theorem W2_launch (b : Ref sig .tc) (h1 : b ∉ hostOps0_W) (h2 : b ∉ hostOps0_1_W) :
    W2 m c (Proc.devRef .tc b) = m ((c : Thread nD τ).loc b) :=
  (W2_keep m c b h2).trans ((W1_keep m c b h1).trans rfl)

theorem W3_launch (b : Ref sig .tc) (h1 : b ∉ hostOps0_W) (h2 : b ∉ hostOps0_1_W) (h3 : b ∉ hostOps0_2_W) :
    W3 m c (Proc.devRef .tc b) = m ((c : Thread nD τ).loc b) :=
  (W3_keep m c b h3).trans (W2_launch m c b h1 h2)

theorem V3_arg1 : (W3 m c (Proc.devRef .tc main_arg1) : (⟨3, ![1, 1, 1024]⟩ : Shape).Idx → EReal) = A1 m c :=
  W3_launch m c main_arg1 (by decide) (by decide) (by decide)
theorem V3_arg2 : (W3 m c (Proc.devRef .tc main_arg2) : Cert.Spec.Arr 512 1024) = A2 m c :=
  W3_launch m c main_arg2 (by decide) (by decide) (by decide)
theorem V3_arg4 : (W3 m c (Proc.devRef .tc main_arg4) : Cert.Spec.Arr 512 2048) = A4 m c :=
  W3_launch m c main_arg4 (by decide) (by decide) (by decide)
theorem V3_arg6 : (W3 m c (Proc.devRef .tc main_arg6) : Cert.Spec.Arr 1024 2048) = A6 m c :=
  W3_launch m c main_arg6 (by decide) (by decide) (by decide)
theorem V3_arg8 : (W3 m c (Proc.devRef .tc main_arg8) : Cert.Spec.Arr 3072 1024) = A8 m c :=
  W3_launch m c main_arg8 (by decide) (by decide) (by decide)
theorem V3_arg9 : (W3 m c (Proc.devRef .tc main_arg9) : Cert.Spec.Arr 3072 1024) = A9 m c :=
  W3_launch m c main_arg9 (by decide) (by decide) (by decide)
theorem V3_arg12 : (W3 m c (Proc.devRef .tc main_arg12) : Cert.Spec.Arr 50257 1024) = A12 m c :=
  W3_launch m c main_arg12 (by decide) (by decide) (by decide)

theorem V3_v1_row (r : Fin 50257) :
    (fun j => (W3 m c (Proc.devRef .tc main_v1) : (⟨3, ![50257, 1, 1024]⟩ : Shape).Idx → EReal) (ix3 r 0 (j 1)) : Cert.Spec.Arr 1 1024)
      = fun j => A3 m c (ix2 r (j 1)) :=
  funext fun j => (v1_apply (W2 m c) r (j 1)).trans
    (congrFun (W2_launch m c main_arg3 (by decide) (by decide)) (ix2 r (j 1)))

theorem V3_prev :
    (fun j => (W3 m c (Proc.devRef .tc main_arg1) : (⟨3, ![1, 1, 1024]⟩ : Shape).Idx → EReal) (ix3 0 0 (j 1)) : Cert.Spec.Arr 1 1024)
      = Cert.RefVal.h0 (A1 m c) :=
  funext fun j => congrFun (V3_arg1 m c) (ix3 0 0 (j 1))

-- A vector reshaped to one row, read back as that row.
theorem b2_of_cast {n : Nat} {X : Cert.Spec.Arr 1 n} {Y A : (⟨1, ![n]⟩ : Shape).Idx → EReal}
    {hc : (⟨1, ![n]⟩ : Shape).ShapeCasts ⟨2, ![1, n]⟩} (hX : X = shapeCast ⟨2, ![1, n]⟩ Y hc) (hY : Y = A) :
    X = Cert.RefVal.b2 A := by
  subst hX hY
  funext j
  rw [Cert.RefVal.row_eq j]
  exact shapeCast_a_1a_apply _ _ 0 (j 1)

theorem V3_v2 : (W3 m c (Proc.devRef .tc main_v2) : Cert.Spec.Arr 1 512) = Cert.RefVal.b2 (A5 m c) :=
  b2_of_cast (v2_eq (W2 m c)) (W2_launch m c main_arg5 (by decide) (by decide))

theorem V3_v3 : (W3 m c (Proc.devRef .tc main_v3) : Cert.Spec.Arr 1 1024) = Cert.RefVal.b2 (A7 m c) :=
  b2_of_cast (v3_eq (W2 m c)) (W2_launch m c main_arg7 (by decide) (by decide))

theorem V3_v4 : (W3 m c (Proc.devRef .tc main_v4) : Cert.Spec.Arr 1 3072) = Cert.RefVal.b2 (A10 m c) :=
  b2_of_cast (v4_eq (W2 m c)) (W2_launch m c main_arg10 (by decide) (by decide))

theorem V3_v5 : (W3 m c (Proc.devRef .tc main_v5) : Cert.Spec.Arr 1 3072) = Cert.RefVal.b2 (A11 m c) :=
  b2_of_cast (v5_eq (W2 m c)) (W2_launch m c main_arg11 (by decide) (by decide))

theorem V3_v6 : (W3 m c (Proc.devRef .tc main_v6) : Cert.Spec.Arr 1 50257) = Cert.RefVal.b2 (A13 m c) :=
  b2_of_cast (v6_eq (W2 m c)) (W2_launch m c main_arg13 (by decide) (by decide))

theorem V3_v7 : (W3 m c (Proc.devRef .tc main_v7) : Cert.Spec.Arr 1 1024) = Cert.RefVal.h0 (A1 m c) :=
  funext fun j => by
    rw [Cert.RefVal.row_eq j]
    exact ((congrFun (v7_eq (W2 m c)) _).trans (shapeCast_1ab_ab_apply _ _ 0 (j 1))).trans
      (congrFun (W2_launch m c main_arg1 (by decide) (by decide)) (ix3 0 0 (j 1)))

variable (hx : 0 ≤ ((A0 m c) (ix1 (0 : Fin 1))).toInt)

include hx in

theorem row_ref (i : grid0.Coords) :
    cc0_transform_0 inb_S1_S1_0 numel1_S1 (adm0 m hok).1 i 0 = (Cert.RefVal.refRow (A0 m c)).val := by
  obtain rfl : c = (0 : Fin 1) := Subsingleton.elim _ _
  exact (tbl_row m i).trans (Cert.RowIndex.kRow_eq_clampRow hx)

theorem p_congr {E E' H H' : Cert.Spec.Arr 1 1024} {AW AW' : Cert.Spec.Arr 512 2048} {AB AB' : Cert.Spec.Arr 1 512}
    (hE : E = E') (hH : H = H') (hW : AW = AW') (hB : AB = AB') :
    Cert.Spec.softmax (Cert.Spec.logits E H AW AB) = Cert.Spec.softmax (Cert.Spec.logits E' H' AW' AB') := by
  subst hE hH hW hB; rfl

theorem g_congr {E E' : Cert.Spec.Arr 1 1024} {P P' : Cert.Spec.Arr 1 512} {X2 X2' : Cert.Spec.Arr 512 1024}
    {X6 X6' : Cert.Spec.Arr 1024 2048} {B B' : Cert.Spec.Arr 1 1024}
    (hE : E = E') (hP : P = P') (h2 : X2 = X2') (h6 : X6 = X6') (hB : B = B') :
    Cert.Spec.cellIn E (Cert.Spec.ctx P X2) X6 B = Cert.Spec.cellIn E' (Cert.Spec.ctx P' X2') X6' B' := by
  subst hE hP h2 h6 hB; rfl

theorem gates_congr {v v' : Cert.Spec.Arr 1 1024} {w w' : Cert.Spec.Arr 3072 1024} {b b' : Cert.Spec.Arr 1 3072}
    (hv : v = v') (hw : w = w') (hb : b = b') : Cert.Spec.gates v w b = Cert.Spec.gates v' w' b' := by
  subst hv hw hb; rfl

theorem newState_congr {gi gi' gh gh' : Cert.Spec.Arr 1 3072} {h h' : Cert.Spec.Arr 1 1024}
    (hi : gi = gi') (hh : gh = gh') (h0 : h = h') : Cert.Spec.newState gi gh h = Cert.Spec.newState gi' gh' h' := by
  subst hi hh h0; rfl

theorem outLogits_congr {h h' : Cert.Spec.Arr 1 1024} {w w' : Cert.Spec.Arr 50257 1024} {b b' : Cert.Spec.Arr 1 50257}
    (hh : h = h') (hw : w = w') (hb : b = b') : Cert.Spec.outLogits h w b = Cert.Spec.outLogits h' w' b' := by
  subst hh hw hb; rfl

include hx in

theorem attn4 :
    (W4 m hok c (Proc.devRef .tc main_v8_1) : Cert.Spec.Arr 1 512)
      = Cert.RefVal.p (A0 m c) (A1 m c) (A3 m c) (A4 m c) (A5 m c) := by
  refine (W4_arr m hok c 8).trans ?_
  refine (Val0.attn_eq (V3 m) (adm0 m hok) c _ (row_ref m hok c hx)).trans ?_
  exact p_congr (V3_v1_row m c _) (V3_prev m c) (V3_arg4 m c) (V3_v2 m c)

include hx in

theorem cell4 :
    (W4 m hok c (Proc.devRef .tc main_v8_0) : Cert.Spec.Arr 1 1024)
      = Cert.RefVal.g (A0 m c) (A1 m c) (A2 m c) (A3 m c) (A4 m c) (A5 m c) (A6 m c) (A7 m c) := by
  refine (W4_arr m hok c 7).trans ?_
  refine (Val0.cell_eq (V3 m) (adm0 m hok) c _ (row_ref m hok c hx)).trans ?_
  exact g_congr (V3_v1_row m c _) (p_congr (V3_v1_row m c _) (V3_prev m c) (V3_arg4 m c) (V3_v2 m c))
    (V3_arg2 m c) (V3_arg6 m c) (V3_v3 m c)

include hx in

theorem gi5 :
    (W5 m hok c (Proc.devRef .tc main_v9_0) : Cert.Spec.Arr 1 3072)
      = Cert.RefVal.gi (A0 m c) (A1 m c) (A2 m c) (A3 m c) (A4 m c) (A5 m c) (A6 m c) (A7 m c) (A8 m c) (A10 m c) := by
  refine (W5_arr m hok c 6).trans ?_
  refine (gates_i (V4 m hok) c).trans ?_
  exact gates_congr (cell4 m hok c hx)
    ((W4_keep m hok c main_arg8 (by decide)).trans (V3_arg8 m c))
    ((W4_keep m hok c main_v4 (by decide)).trans (V3_v4 m c))

theorem gh5 :
    (W5 m hok c (Proc.devRef .tc main_v9_1) : Cert.Spec.Arr 1 3072)
      = Cert.RefVal.gh (A1 m c) (A9 m c) (A11 m c) := by
  refine (W5_arr m hok c 7).trans ?_
  refine (gates_h (V4 m hok) c).trans ?_
  exact gates_congr ((W4_keep m hok c main_v7 (by decide)).trans (V3_v7 m c))
    ((W4_keep m hok c main_arg9 (by decide)).trans (V3_arg9 m c))
    ((W4_keep m hok c main_v5 (by decide)).trans (V3_v5 m c))

theorem prev5 : (W5 m hok c (Proc.devRef .tc main_v7) : Cert.Spec.Arr 1 1024) = Cert.RefVal.h0 (A1 m c) :=
  ((W5_keep m hok c main_v7 (by decide)).trans (W4_keep m hok c main_v7 (by decide))).trans (V3_v7 m c)

include hx in

theorem st6 :
    (W6 m hok c (Proc.devRef .tc main_v37) : Cert.Spec.Arr 1 1024)
      = Cert.RefVal.h1 (A0 m c) (A1 m c) (A2 m c) (A3 m c) (A4 m c) (A5 m c) (A6 m c) (A7 m c) (A8 m c) (A9 m c) (A10 m c) (A11 m c) := by
  refine (state_eq (W5 m hok c)).trans ?_
  exact newState_congr (gi5 m hok c hx) (gh5 m hok c) (prev5 m hok c)

include hx in

theorem attn_val :
    (W7 m hok c (Proc.devRef .tc main_v8_1) : Cert.Spec.Arr 1 512)
      = Cert.RefVal.p (A0 m c) (A1 m c) (A3 m c) (A4 m c) (A5 m c) :=
  (W7_keep' m hok c main_v8_1 (by decide)).trans <| (W6_keep m hok c main_v8_1 (by decide)).trans <|
    (W5_keep m hok c main_v8_1 (by decide)).trans (attn4 m hok c hx)

include hx in

theorem state_val :
    (W7 m hok c (Proc.devRef .tc main_v38) : (⟨3, ![1, 1, 1024]⟩ : Shape).Idx → EReal)
      = fun i => Cert.RefVal.h1 (A0 m c) (A1 m c) (A2 m c) (A3 m c) (A4 m c) (A5 m c) (A6 m c) (A7 m c) (A8 m c) (A9 m c) (A10 m c) (A11 m c)
          (ix2 0 (i 2)) := by
  refine (W7_keep' m hok c main_v38 (by decide)).trans ?_
  refine (state3_eq (W5 m hok c)).trans ?_
  funext i
  exact congrFun (newState_congr (gi5 m hok c hx) (gh5 m hok c) (prev5 m hok c)) (ix2 0 (i 2))

include hx in

theorem out_val :
    (W7 m hok c (Proc.devRef .tc main_v39) : Cert.Spec.Arr 1 50257)
      = Cert.Spec.outLogits
          (Cert.RefVal.h1 (A0 m c) (A1 m c) (A2 m c) (A3 m c) (A4 m c) (A5 m c) (A6 m c) (A7 m c) (A8 m c) (A9 m c) (A10 m c) (A11 m c))
          (A12 m c) (Cert.RefVal.b2 (A13 m c)) := by
  refine (W7_arr m hok c 3).trans ?_
  refine (out_eq (V6 m hok) c).trans ?_
  exact outLogits_congr (st6 m hok c hx)
    ((W6_keep m hok c main_arg12 (by decide)).trans <| (W5_keep m hok c main_arg12 (by decide)).trans <|
      (W4_keep m hok c main_arg12 (by decide)).trans (V3_arg12 m c))
    ((W6_keep m hok c main_v6 (by decide)).trans <| (W5_keep m hok c main_v6 (by decide)).trans <|
      (W4_keep m hok c main_v6 (by decide)).trans (V3_v6 m c))

end Value

end Cert.KernelIdeal.Hand

end
-- ==== Proof.RefVal.lean ====
import proofs.«415979_j2018634629437_3_alg».proof.Proof.RefRead
import proofs.«415979_j2018634629437_3_alg».proof.Proof.Spec
import proofs.«415979_j2018634629437_3_alg».proof.Proof.LibGather2
import proofs.«415979_j2018634629437_3_alg».proof.Proof.RefAux

noncomputable section

namespace Cert.RefVal

open Cert.ReferenceIdeal Cert.ReferenceIdeal.Gen Cert.RefRead Idealize.ShloMosaic Idealize.ShloMosaic.ValueIdx

variable (x0 : (⟨S1, .i32⟩ : BufTy).Contents (Elt Ideal)) (x1 : (⟨S1x1x1024, .f32⟩ : BufTy).Contents (Elt Ideal))
  (x2 : (⟨S512x1024, .f32⟩ : BufTy).Contents (Elt Ideal)) (x3 : (⟨S50257x1024, .f32⟩ : BufTy).Contents (Elt Ideal))
  (x4 : (⟨S512x2048, .f32⟩ : BufTy).Contents (Elt Ideal)) (x5 : (⟨S512, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

theorem ref_token (i : S1x1.Idx) : val_main_v5 (F := Ideal) x0 i = tokenWord x0 := by
  have hi : idx_main_v5 i = ix1 (0 : Fin 1) := ix1_ext rfl
  rw [val_main_v5_apply, val_main_v4_apply, val_main_v1_apply, val_main_v3_apply, val_main_v0_apply, val_main_v2_apply,
    val_main_c_apply, val_main_c_0_apply, hi]
  rfl

theorem ref_e : val_main_v6 (F := Ideal) x0 x3 = e x0 x3 := by
  funext j
  obtain ⟨q, rfl⟩ : ∃ q : Fin 1024, j = ix2 (0 : Fin 1) q := ⟨j 1, row_eq j⟩
  unfold val_main_v6
  rw [IndexOpsLib.gather_rows (by decide) gather_S50257x1024_S1x1_S1x1024_1_0_n_n_0_1_11024 rfl rfl rfl rfl rfl x3
    (val_main_v5 (F := Ideal) x0) (0 : Fin 1) q, ref_token]
  rfl

theorem ref_h0 : val_main_v7 (F := Ideal) x1 = h0 x1 := by
  funext j
  rw [val_main_v7_apply]
  exact congrArg x1 (funext fun a => Fin.ext (by
    match a with
    | ⟨0, _⟩ => rfl
    | ⟨1, _⟩ => rfl
    | ⟨2, _⟩ =>
      have hj0 : (j 0).val < 1 := (j 0).isLt
      have hj1 : (j 1).val < 1024 := (j 1).isLt
      show ((j 0).val * 1024 + (j 1).val) % 1024 = (j 1).val
      omega))

theorem ref_cat8 (k : Fin 2048) :
    val_main_v8 (F := Ideal) x0 x1 x3 (ix2 (0 : Fin 1) k) = Spec.catAt (e x0 x3) (h0 x1) k := by
  unfold val_main_v8
  rw [ref_e, ref_h0]
  exact cat_apply _ _ _ k

theorem ref_logits : val_main_v12 (F := Ideal) x0 x1 x3 x4 x5 = lg x0 x1 x3 x4 x5 := by
  funext j
  obtain ⟨q, rfl⟩ : ∃ q : Fin 512, j = ix2 (0 : Fin 1) q := ⟨j 1, row_eq j⟩
  rw [val_main_v12_apply, val_main_v10_apply, val_main_v11_apply, Ideal.addf_def]
  show _ + _ = (∑ k : Fin 2048, Spec.catAt (e x0 x3) (h0 x1) k * x4 (ix2 q k)) + x5 (ix1 q)
  have hb : idx_main_v11 (ix2 (0 : Fin 1) q) = ix1 q := ix1_ext rfl
  refine congrArg₂ (· + ·) (Finset.sum_congr rfl fun k _ => ?_) (congrArg x5 hb)
  rw [val_main_v9_apply]
  have hl : lidx_main_v10 (ix2 (0 : Fin 1) q) k = ix2 (0 : Fin 1) k := ix2_ext rfl rfl
  have hr : idx_main_v9 (ridx_main_v10 (ix2 (0 : Fin 1) q) k) = ix2 q k := ix2_ext rfl rfl
  exact congrArg₂ (· * ·) ((congrArg _ hl).trans (ref_cat8 x0 x1 x3 k)) (congrArg x4 hr)

theorem ref_rowMax (i : S1.Idx) : val_main_v15 (F := Ideal) x0 x1 x3 x4 x5 i = Spec.rowMax (lg x0 x1 x3 x4 x5) := by
  have hm : Host.reduce (FloatOps.maximumf (F := Ideal) (φ := .f32)) (lg x0 x1 x3 x4 x5) (val_main_cst (F := Ideal))
      reducesTo_S1x512_S1_d1 h_S_ i = Spec.rowMax (lg x0 x1 x3 x4 x5) := hostMax_row _ _ _ i
  rw [val_main_v15_apply, val_main_v14_apply, val_main_cst_1_apply]
  unfold val_main_v13
  rw [ref_logits, hm, Ideal.maximumf_def, Ideal.ofBits_def, negInf]
  exact max_eq_right bot_le

theorem ref_exp : val_main_v19 (F := Ideal) x0 x1 x3 x4 x5
    = fun j => Ideal.exp (lg x0 x1 x3 x4 x5 j - Spec.rowMax (lg x0 x1 x3 x4 x5)) := by
  funext j
  rw [val_main_v19_apply, val_main_v18_apply, val_main_v17_apply, val_main_v16_apply, ref_rowMax, ref_logits]
  rfl

theorem ref_sum (i : S1.Idx) : val_main_v20 (F := Ideal) x0 x1 x3 x4 x5 i
    = ∑ k : Fin 512, Ideal.exp (lg x0 x1 x3 x4 x5 (ix2 (0 : Fin 1) k) - Spec.rowMax (lg x0 x1 x3 x4 x5)) := by
  rw [val_main_v20_apply, val_main_cst_2_apply, Ideal.ofBits_def, Ideal.ofBits_zero_f32, zero_add]
  refine Finset.sum_congr rfl fun k _ => ?_
  have hk : idx_main_v20 i k = ix2 (0 : Fin 1) k := funext fun a => Fin.ext (by
    match a with
    | ⟨0, _⟩ => exact (show (i 0).val = 0 by have h : (i 0).val < 1 := (i 0).isLt; omega)
    | ⟨1, _⟩ => rfl)
  rw [ref_exp]
  exact congrArg (fun j => Ideal.exp (lg x0 x1 x3 x4 x5 j - Spec.rowMax (lg x0 x1 x3 x4 x5))) hk

theorem ref_attn : val_main_v23 (F := Ideal) x0 x1 x3 x4 x5 = p x0 x1 x3 x4 x5 := by
  funext j
  rw [val_main_v23_apply, val_main_v22_apply, val_main_v21_apply, ref_sum, ref_exp]
  rfl

theorem ref_ctx : val_main_v24 (F := Ideal) x0 x1 x2 x3 x4 x5 = Spec.ctx (p x0 x1 x3 x4 x5) x2 := by
  funext j
  obtain ⟨q, rfl⟩ : ∃ q : Fin 1024, j = ix2 (0 : Fin 1) q := ⟨j 1, row_eq j⟩
  rw [val_main_v24_apply, ref_attn]
  show _ = ∑ k : Fin 512, p x0 x1 x3 x4 x5 (ix2 (0 : Fin 1) k) * x2 (ix2 k q)
  refine Finset.sum_congr rfl fun k _ => ?_
  have hl : lidx_main_v24 (ix2 (0 : Fin 1) q) k = ix2 (0 : Fin 1) k := ix2_ext rfl rfl
  have hr : ridx_main_v24 (ix2 (0 : Fin 1) q) k = ix2 k q := ix2_ext rfl rfl
  exact congrArg₂ (· * ·) (congrArg _ hl) (congrArg x2 hr)

theorem ref_cat25 (k : Fin 2048) :
    val_main_v25 (F := Ideal) x0 x1 x2 x3 x4 x5 (ix2 (0 : Fin 1) k) = Spec.catAt (e x0 x3) (Spec.ctx (p x0 x1 x3 x4 x5) x2) k := by
  unfold val_main_v25
  rw [ref_e, ref_ctx]
  exact cat_apply _ _ _ k

theorem ref_cell : val_main_v30 (F := Ideal) x0 x1 x2 x3 x4 x5 x6 x7 = g x0 x1 x2 x3 x4 x5 x6 x7 := by
  funext j
  obtain ⟨q, rfl⟩ : ∃ q : Fin 1024, j = ix2 (0 : Fin 1) q := ⟨j 1, row_eq j⟩
  rw [val_main_v30_apply, val_main_v29_apply, val_main_v27_apply, val_main_v28_apply, val_main_call0_v0_apply,
    val_main_call0_cst_apply, Ideal.maximumf_def, Ideal.addf_def, Ideal.ofBits_def, Ideal.ofBits_zero_f32]
  show max (_ + _) 0
    = max ((∑ k : Fin 2048, Spec.catAt (e x0 x3) (Spec.ctx (p x0 x1 x3 x4 x5) x2) k * x6 (ix2 q k)) + x7 (ix1 q)) 0
  have hb : idx_main_v28 (ix2 (0 : Fin 1) q) = ix1 q := ix1_ext rfl
  refine congrArg (max · 0) (congrArg₂ (· + ·) (Finset.sum_congr rfl fun k _ => ?_) (congrArg x7 hb))
  rw [val_main_v26_apply]
  have hl : lidx_main_v27 (ix2 (0 : Fin 1) q) k = ix2 (0 : Fin 1) k := ix2_ext rfl rfl
  have hr : idx_main_v26 (ridx_main_v27 (ix2 (0 : Fin 1) q) k) = ix2 q k := ix2_ext rfl rfl
  exact congrArg₂ (· * ·) ((congrArg _ hl).trans (ref_cat25 x0 x1 x2 x3 x4 x5 k)) (congrArg x6 hr)

theorem ref_gi : val_main_v34 (F := Ideal) x0 x1 x2 x3 x4 x5 x6 x7 x8 x10 = gi x0 x1 x2 x3 x4 x5 x6 x7 x8 x10 := by
  funext j
  obtain ⟨q, rfl⟩ : ∃ q : Fin 3072, j = ix2 (0 : Fin 1) q := ⟨j 1, row_eq j⟩
  rw [val_main_v34_apply, val_main_v32_apply, val_main_v33_apply, ref_cell, Ideal.addf_def]
  show _ + _ = (∑ k : Fin 1024, g x0 x1 x2 x3 x4 x5 x6 x7 (ix2 (0 : Fin 1) k) * x8 (ix2 q k)) + x10 (ix1 q)
  have hb : idx_main_v33 (ix2 (0 : Fin 1) q) = ix1 q := ix1_ext rfl
  refine congrArg₂ (· + ·) (Finset.sum_congr rfl fun k _ => ?_) (congrArg x10 hb)
  rw [val_main_v31_apply]
  have hl : lidx_main_v32 (ix2 (0 : Fin 1) q) k = ix2 (0 : Fin 1) k := ix2_ext rfl rfl
  have hr : idx_main_v31 (ridx_main_v32 (ix2 (0 : Fin 1) q) k) = ix2 q k := ix2_ext rfl rfl
  exact congrArg₂ (· * ·) (congrArg _ hl) (congrArg x8 hr)

theorem ref_gh : val_main_v38 (F := Ideal) x1 x9 x11 = gh x1 x9 x11 := by
  funext j
  obtain ⟨q, rfl⟩ : ∃ q : Fin 3072, j = ix2 (0 : Fin 1) q := ⟨j 1, row_eq j⟩
  rw [val_main_v38_apply, val_main_v36_apply, val_main_v37_apply, ref_h0, Ideal.addf_def]
  show _ + _ = (∑ k : Fin 1024, h0 x1 (ix2 (0 : Fin 1) k) * x9 (ix2 q k)) + x11 (ix1 q)
  have hb : idx_main_v37 (ix2 (0 : Fin 1) q) = ix1 q := ix1_ext rfl
  refine congrArg₂ (· + ·) (Finset.sum_congr rfl fun k _ => ?_) (congrArg x11 hb)
  rw [val_main_v35_apply]
  have hl : lidx_main_v36 (ix2 (0 : Fin 1) q) k = ix2 (0 : Fin 1) k := ix2_ext rfl rfl
  have hr : idx_main_v35 (ridx_main_v36 (ix2 (0 : Fin 1) q) k) = ix2 q k := ix2_ext rfl rfl
  exact congrArg₂ (· * ·) (congrArg _ hl) (congrArg x9 hr)

theorem ref_r (q : Fin 1024) : val_main_v51 (F := Ideal) x0 x1 x2 x3 x4 x5 x6 x7 x8 x9 x10 x11 (ix2 (0 : Fin 1) q)
    = Spec.sigm (gi x0 x1 x2 x3 x4 x5 x6 x7 x8 x10 (ix2 (0 : Fin 1) (⟨q.val, by omega⟩ : Fin 3072)) + gh x1 x9 x11 (ix2 (0 : Fin 1) (⟨q.val, by omega⟩ : Fin 3072))) := by
  have i39 : idx_main_v39 (ix2 (0 : Fin 1) q) = ix2 (0 : Fin 1) (⟨q.val, by omega⟩ : Fin 3072) := ix2_ext rfl rfl
  have i42 : idx_main_v42 (ix2 (0 : Fin 1) q) = ix2 (0 : Fin 1) (⟨q.val, by omega⟩ : Fin 3072) := ix2_ext rfl rfl
  rw [val_main_v51_apply, val_main_v50_apply, val_main_cst_4_apply, val_main_v49_apply, val_main_v48_apply,
    val_main_cst_3_apply, val_main_v47_apply, val_main_v46_apply, val_main_v45_apply, val_main_v39_apply,
    val_main_v42_apply, ref_gi, ref_gh, i39, i42, Ideal.ofBits_def, Ideal.ofBits_one_f32]
  rfl

theorem ref_z (q : Fin 1024) : val_main_v58 (F := Ideal) x0 x1 x2 x3 x4 x5 x6 x7 x8 x9 x10 x11 (ix2 (0 : Fin 1) q)
    = Spec.sigm (gi x0 x1 x2 x3 x4 x5 x6 x7 x8 x10 (ix2 (0 : Fin 1) (⟨q.val + 1024, by omega⟩ : Fin 3072)) + gh x1 x9 x11 (ix2 (0 : Fin 1) (⟨q.val + 1024, by omega⟩ : Fin 3072))) := by
  have i40 : idx_main_v40 (ix2 (0 : Fin 1) q) = ix2 (0 : Fin 1) (⟨q.val + 1024, by omega⟩ : Fin 3072) :=
    ix2_ext rfl (Nat.add_comm 1024 q.val)
  have i43 : idx_main_v43 (ix2 (0 : Fin 1) q) = ix2 (0 : Fin 1) (⟨q.val + 1024, by omega⟩ : Fin 3072) :=
    ix2_ext rfl (Nat.add_comm 1024 q.val)
  rw [val_main_v58_apply, val_main_v57_apply, val_main_cst_6_apply, val_main_v56_apply, val_main_v55_apply,
    val_main_cst_5_apply, val_main_v54_apply, val_main_v53_apply, val_main_v52_apply, val_main_v40_apply,
    val_main_v43_apply, ref_gi, ref_gh, i40, i43, Ideal.ofBits_def, Ideal.ofBits_one_f32]
  rfl

theorem ref_n (q : Fin 1024) : val_main_v61 (F := Ideal) x0 x1 x2 x3 x4 x5 x6 x7 x8 x9 x10 x11 (ix2 (0 : Fin 1) q)
    = Ideal.tanh (gi x0 x1 x2 x3 x4 x5 x6 x7 x8 x10 (ix2 (0 : Fin 1) (⟨q.val + 2048, by omega⟩ : Fin 3072))
        + Spec.sigm (gi x0 x1 x2 x3 x4 x5 x6 x7 x8 x10 (ix2 (0 : Fin 1) (⟨q.val, by omega⟩ : Fin 3072)) + gh x1 x9 x11 (ix2 (0 : Fin 1) (⟨q.val, by omega⟩ : Fin 3072)))
          * gh x1 x9 x11 (ix2 (0 : Fin 1) (⟨q.val + 2048, by omega⟩ : Fin 3072))) := by
  have i41 : idx_main_v41 (ix2 (0 : Fin 1) q) = ix2 (0 : Fin 1) (⟨q.val + 2048, by omega⟩ : Fin 3072) :=
    ix2_ext rfl (Nat.add_comm 2048 q.val)
  have i44 : idx_main_v44 (ix2 (0 : Fin 1) q) = ix2 (0 : Fin 1) (⟨q.val + 2048, by omega⟩ : Fin 3072) :=
    ix2_ext rfl (Nat.add_comm 2048 q.val)
  rw [val_main_v61_apply, val_main_v60_apply, val_main_v59_apply, ref_r, val_main_v41_apply, val_main_v44_apply,
    ref_gi, ref_gh, i41, i44]
  rfl

theorem ref_h1 : val_main_v66 (F := Ideal) x0 x1 x2 x3 x4 x5 x6 x7 x8 x9 x10 x11 = h1 x0 x1 x2 x3 x4 x5 x6 x7 x8 x9 x10 x11 := by
  funext j
  obtain ⟨q, rfl⟩ : ∃ q : Fin 1024, j = ix2 (0 : Fin 1) q := ⟨j 1, row_eq j⟩
  rw [val_main_v66_apply, val_main_v64_apply, val_main_v65_apply, val_main_v63_apply, val_main_v62_apply,
    val_main_cst_7_apply, ref_z, ref_n, ref_h0, Ideal.ofBits_def, Ideal.ofBits_one_f32]
  rfl

theorem ref_state : val_main_v71 (F := Ideal) x0 x1 x2 x3 x4 x5 x6 x7 x8 x9 x10 x11 = fun i => h1 x0 x1 x2 x3 x4 x5 x6 x7 x8 x9 x10 x11 (ix2 (0 : Fin 1) (i 2)) := by
  funext i
  rw [val_main_v71_apply, ref_h1]
  exact congrArg (h1 x0 x1 x2 x3 x4 x5 x6 x7 x8 x9 x10 x11) (ix2_ext rfl rfl)

theorem ref_out : val_main_v70 (F := Ideal) x0 x1 x2 x3 x4 x5 x6 x7 x8 x9 x10 x11 x12 x13 = Spec.outLogits (h1 x0 x1 x2 x3 x4 x5 x6 x7 x8 x9 x10 x11) x12 (b2 x13) := by
  funext j
  obtain ⟨q, rfl⟩ : ∃ q : Fin 50257, j = ix2 (0 : Fin 1) q := ⟨j 1, row_eq j⟩
  rw [val_main_v70_apply, val_main_v68_apply, val_main_v69_apply, ref_h1, Ideal.addf_def]
  show _ + _ = (∑ k : Fin 1024, h1 x0 x1 x2 x3 x4 x5 x6 x7 x8 x9 x10 x11 (ix2 (0 : Fin 1) k) * x12 (ix2 q k)) + x13 (ix1 q)
  have hb : idx_main_v69 (ix2 (0 : Fin 1) q) = ix1 q := ix1_ext rfl
  refine congrArg₂ (· + ·) (Finset.sum_congr rfl fun k _ => ?_) (congrArg x13 hb)
  rw [val_main_v67_apply]
  have hl : lidx_main_v68 (ix2 (0 : Fin 1) q) k = ix2 (0 : Fin 1) k := ix2_ext rfl rfl
  have hr : idx_main_v67 (ridx_main_v68 (ix2 (0 : Fin 1) q) k) = ix2 q k := ix2_ext rfl rfl
  exact congrArg₂ (· * ·) (congrArg _ hl) (congrArg x12 hr)

end Cert.RefVal

end
-- ==== Proof.RefRunB.lean ====
import proofs.«415979_j2018634629437_3_alg».proof.Proof.RefRunA
import proofs.«415979_j2018634629437_3_alg».proof.Proof.RefRead
import Idealize.ShloMosaic.Lib.Pipeline.Frame

noncomputable section

namespace Cert.RefRunHand

open Cert.RefRead Cert.ReferenceIdeal Cert.ReferenceIdeal.Gen Idealize.ShloMosaic Idealize.ShloMosaic.TcCoe Idealize.SL.Sem Idealize.ShloMosaic.StableHlo

variable {F : FTy → Type} [FloatOps F]

/-- The reference each operation writes, in program order. -/
abbrev opsW : List (Ref sig .tc) := [main_c, main_v0, main_v1, main_c_0, main_v2, main_v3, main_v4, main_v5, main_v6, main_v7, main_v8, main_v9, main_v10, main_v11, main_v12, main_cst, main_v13, main_cst_1, main_v14, main_v15, main_v16, main_v17, main_v18, main_v19, main_cst_2, main_v20, main_v21, main_v22, main_v23, main_v24, main_v25, main_v26, main_v27, main_v28, main_v29, main_call0_cst, main_call0_v0, main_v30, main_v31, main_v32, main_v33, main_v34, main_v35, main_v36, main_v37, main_v38, main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66, main_v67, main_v68, main_v69, main_v70, main_v71]

theorem ops_writes : List.Forall₂ (fun (op : HloOp τ sig (Elt F)) y => op.writes = {Proc.devRef .tc y}) ops opsW := by
  repeat' constructor

/-- Operations that each write one listed reference leave every unlisted reference as it was. -/
theorem after_keep {r : Ref sig .tc} {l : List (HloOp τ sig (Elt F))} {Wr : List (Ref sig .tc)}
    (h : List.Forall₂ (fun op y => op.writes = {Proc.devRef .tc y}) l Wr) (hr : r ∉ Wr) (V : Valuation τ sig (Elt F)) :
    after l V (Proc.devRef .tc r) = V (Proc.devRef .tc r) := by
  induction h generalizing V with
  | nil => rfl
  | cons e _ ih =>
    rw [after_cons, ih (fun h' => hr (List.mem_cons_of_mem _ h')), HloOp.result_of_not_mem]
    rw [e, Finset.mem_singleton]
    exact devRef_ne_of_ne fun e' => hr (e' ▸ List.mem_cons_self ..)

variable (m : (ℓ : Loc nD τ sig) → Buf (Elt F) ℓ) (c : Dev nD)

/-- The buffers' contents after the first `k` operations. -/
def W (k : ℕ) : Valuation τ sig (Elt F) := after (ops.take k) (launchContents m c)

theorem W_add (a b : ℕ) : W m c (a + b) = after ((ops.drop a).take b) (W m c a) := by
  unfold W; rw [List.take_add, StableHlo.after_append]

/-- A reference none of the operations from the `a`-th on writes holds later what it held after the first `a`. -/
theorem W_keep (a b : ℕ) (r : Ref sig .tc) (hr : r ∉ opsW.drop a) : W m c (a + b) (Proc.devRef .tc r) = W m c a (Proc.devRef .tc r) := by
  rw [W_add]
  exact after_keep (List.forall₂_take b (List.forall₂_drop a ops_writes)) (fun h => hr (List.mem_of_mem_take h)) _

theorem W10_v6 : W m c 10 (Proc.devRef .tc main_v6) = val_main_v6 (m (c.tc.loc main_arg0)) (m (c.tc.loc main_arg3)) := by
  unfold W
  simp only [List.take]
  after_results_simp
  rfl
theorem W10_v7 : W m c 10 (Proc.devRef .tc main_v7) = val_main_v7 (m (c.tc.loc main_arg1)) := by
  unfold W
  simp only [List.take]
  after_results_simp
  rfl

def res_main_v70 : Buf (Elt F) ((c.tc : Thread nD τ).loc main_v70) :=
  val_main_v70 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))
def res_main_v71 : Buf (Elt F) ((c.tc : Thread nD τ).loc main_v71) :=
  val_main_v71 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11))
def res_main_v23 : Buf (Elt F) ((c.tc : Thread nD τ).loc main_v23) :=
  val_main_v23 (m (c.tc.loc main_arg0)) (m (c.tc.loc main_arg1)) (m (c.tc.loc main_arg3)) (m (c.tc.loc main_arg4)) (m (c.tc.loc main_arg5))
theorem res_main_v70_eq : res_main_v70 m c = val_main_v70 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) := rfl
theorem res_main_v71_eq : res_main_v71 m c = val_main_v71 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) := rfl
theorem res_main_v23_eq : res_main_v23 m c = val_main_v23 (m (c.tc.loc main_arg0)) (m (c.tc.loc main_arg1)) (m (c.tc.loc main_arg3)) (m (c.tc.loc main_arg4)) (m (c.tc.loc main_arg5)) := rfl

theorem W30_v23 : W m c 30 (Proc.devRef .tc main_v23) = res_main_v23 m c := by
  rw [W_add m c 10 20]
  simp only [List.take, List.drop]
  after_results_simp
  rw [W10_v6 m c, W10_v7 m c, W_keep m c 0 10 main_arg4 (by decide), W_keep m c 0 10 main_arg5 (by decide)]
  rfl
theorem W30_v24 : W m c 30 (Proc.devRef .tc main_v24) = val_main_v24 (m (c.tc.loc main_arg0)) (m (c.tc.loc main_arg1)) (m (c.tc.loc main_arg2)) (m (c.tc.loc main_arg3)) (m (c.tc.loc main_arg4)) (m (c.tc.loc main_arg5)) := by
  rw [W_add m c 10 20]
  simp only [List.take, List.drop]
  after_results_simp
  rw [W10_v6 m c, W10_v7 m c, W_keep m c 0 10 main_arg4 (by decide), W_keep m c 0 10 main_arg5 (by decide), W_keep m c 0 10 main_arg2 (by decide)]
  rfl

theorem W42_v34 : W m c 42 (Proc.devRef .tc main_v34) = val_main_v34 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg10)) := by
  rw [W_add m c 30 12]
  simp only [List.take, List.drop]
  after_results_simp
  rw [W_keep m c 10 20 main_v6 (by decide), W10_v6 m c, W30_v24 m c, W_keep m c 0 30 main_arg6 (by decide), W_keep m c 0 30 main_arg7 (by decide), W_keep m c 0 30 main_arg8 (by decide), W_keep m c 0 30 main_arg10 (by decide)]
  rfl

theorem W79_v66 : W m c 79 (Proc.devRef .tc main_v66) = val_main_v66 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) := by
  rw [W_add m c 42 37]
  simp only [List.take, List.drop]
  after_results_simp
  rw [W42_v34 m c, W_keep m c 10 32 main_v7 (by decide), W10_v7 m c, W_keep m c 0 42 main_arg9 (by decide), W_keep m c 0 42 main_arg11 (by decide)]
  rfl

theorem after_ops : after ops (launchContents m c) = W m c 84 := rfl

theorem after_v70 : after ops (launchContents m c) (Proc.devRef .tc main_v70) = res_main_v70 m c := by
  rw [after_ops, W_add m c 79 5]
  simp only [List.take, List.drop]
  after_results_simp
  rw [W79_v66 m c, W_keep m c 0 79 main_arg12 (by decide), W_keep m c 0 79 main_arg13 (by decide)]
  rfl
theorem after_v71 : after ops (launchContents m c) (Proc.devRef .tc main_v71) = res_main_v71 m c := by
  rw [after_ops, W_add m c 79 5]
  simp only [List.take, List.drop]
  after_results_simp
  rw [W79_v66 m c]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v70) = res_main_v70 m c
      ∧ r.2.mem (c.tc.loc main_v71) = res_main_v71 m c
      ∧ r.2.mem (c.tc.loc main_v23) = res_main_v23 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13) :=
  (θ_run defs _ _).mono (fun s h c =>
    have K (r : Ref sig .tc) (hr : r ∉ opsW := by decide) : s.2.mem (c.tc.loc r) = m (c.tc.loc r) := (h c r).trans (after_keep ops_writes hr _)
    ⟨(h c _).trans (after_v70 m c), (h c _).trans (after_v71 m c),
      (h c _).trans ((congrFun (after_ops m c) _).trans ((W_keep m c 30 54 main_v23 (by decide)).trans (W30_v23 m c))),
      K main_arg0, K main_arg1, K main_arg2, K main_arg3, K main_arg4, K main_arg5, K main_arg6,
      K main_arg7, K main_arg8, K main_arg9, K main_arg10, K main_arg11, K main_arg12, K main_arg13⟩)
    (run_seq scopedRefs_eq scopedSems_eq defs main (fun _ => ops) main_eq (fun _ => ops_sub) m ρ)

end Cert.RefRunHand

end
-- ==== Proof.Algebraic.lean ====
import proofs.«415979_j2018634629437_3_alg».proof.Defs
import proofs.«415979_j2018634629437_3_alg».proof.Proof.Gen.KernelIdeal
import proofs.«415979_j2018634629437_3_alg».proof.Proof.Gen.ReferenceIdeal
import proofs.«415979_j2018634629437_3_alg».proof.Proof.Gen.Pre_finite_inputs
import proofs.«415979_j2018634629437_3_alg».proof.Proof.KI.Frame
import proofs.«415979_j2018634629437_3_alg».proof.Proof.KI.Ok
import proofs.«415979_j2018634629437_3_alg».proof.Proof.KI.Val2
import proofs.«415979_j2018634629437_3_alg».proof.Proof.KI.Value
import proofs.«415979_j2018634629437_3_alg».proof.Proof.RefVal
import proofs.«415979_j2018634629437_3_alg».proof.Proof.RefRunB
import proofs.«415979_j2018634629437_3_alg».proof.Proof.RowIndex

set_option maxRecDepth 16384

noncomputable section

namespace Cert.Proof

open Idealize.ShloMosaic Idealize.ShloMosaic.TcCoe Idealize.SL.Sem Idealize.ShloMosaic.ValueIdx
open Cert.KernelIdeal.Hand

-- A property of every member of a fourteen-element list, member by member.
theorem conj14 {α : Type} {P : α → Prop} {a0 a1 a2 a3 a4 a5 a6 a7 a8 a9 a10 a11 a12 a13 : α}
    (h : ∀ b ∈ [a0, a1, a2, a3, a4, a5, a6, a7, a8, a9, a10, a11, a12, a13], P b) :
    P a0 ∧ P a1 ∧ P a2 ∧ P a3 ∧ P a4 ∧ P a5 ∧ P a6 ∧ P a7 ∧ P a8 ∧ P a9 ∧ P a10 ∧ P a11 ∧ P a12 ∧ P a13 :=
  ⟨h _ (by simp), h _ (by simp), h _ (by simp), h _ (by simp), h _ (by simp), h _ (by simp), h _ (by simp),
    h _ (by simp), h _ (by simp), h _ (by simp), h _ (by simp), h _ (by simp), h _ (by simp), h _ (by simp)⟩

theorem algebraic : Cert.algebraic_KernelIdeal_ReferenceIdeal := by
  intro m ρ m' ρ' hpre hagree
  have hok : Cert.KernelIdeal.ok0 (tbl m) := ok_tbl m
  have hx : ∀ c : Dev Cert.KernelIdeal.nD, 0 ≤ ((A0 m c) (ix1 (0 : Fin 1))).toInt :=
    fun c => Cert.RowIndex.x_nonneg (hpre c)
  refine ⟨fun c => W7 m hok c (Proc.devRef .tc Cert.KernelIdeal.main_v39),
    fun c => W7 m hok c (Proc.devRef .tc Cert.KernelIdeal.main_v38),
    fun c => W7 m hok c (Proc.devRef .tc Cert.KernelIdeal.main_v8_1), ?_, ?_⟩
  · exact (θ_run _ _ _).mono (fun r h c =>
      ⟨h c _ (mem_uc Cert.KernelIdeal.main_v39 (by decide)), h c _ (mem_uc Cert.KernelIdeal.main_v38 (by decide)),
        h c _ (mem_uc Cert.KernelIdeal.main_v8_1 (by decide)), conj14 (args_of_W7 m hok r.2 c (h c))⟩)
      (run_main m hok payLocal2_ideal ρ)
  · refine (θ_run _ _ _).mono (fun r h c => ?_) (Cert.RefRunHand.run (F := Ideal) m' ρ')
    obtain ⟨e0, e1, e2, e3, e4, e5, e6, e7, e8, e9, e10, e11, e12, e13⟩ := hagree c
    refine ⟨(h c).1.trans ?_, (h c).2.1.trans ?_, (h c).2.2.1.trans ?_, (h c).2.2.2⟩
    · rw [Cert.RefRunHand.res_main_v70_eq m' c, e0, e1, e2, e3, e4, e5, e6, e7, e8, e9, e10, e11, e12, e13]
      exact (Cert.RefVal.ref_out _ _ _ _ _ _ _ _ _ _ _ _ _ _).trans (out_val m hok c (hx c)).symm
    · rw [Cert.RefRunHand.res_main_v71_eq m' c, e0, e1, e2, e3, e4, e5, e6, e7, e8, e9, e10, e11]
      exact (Cert.RefVal.ref_state _ _ _ _ _ _ _ _ _ _ _ _).trans (state_val m hok c (hx c)).symm
    · rw [Cert.RefRunHand.res_main_v23_eq m' c, e0, e1, e3, e4, e5]
      exact (Cert.RefVal.ref_attn _ _ _ _ _).trans (attn_val m hok c (hx c)).symm

end Cert.Proof

end
-- ==== Proof.lean ====
/-
  Both programs compute one function of the fourteen arguments (Proof/Spec.lean): the row of a table chosen by a clamped
  index; the softmax of an affine image of that row joined to a state row; two more affine maps, the second cut off
  at zero; two affine rows of width 3072 combined through logistic functions and tanh into the new state; an affine
  image of the new state. A product tiled over its output columns is the same finite sum column by column, so the
  tilings change nothing. The programs differ only in the row chosen for a negative index; the precondition keeps the
  index non-negative, and there both choose row min(index, 50256).
-/
import proofs.«415979_j2018634629437_3_alg».proof.Defs
import proofs.«415979_j2018634629437_3_alg».proof.Proof.Gen.Kernel
import proofs.«415979_j2018634629437_3_alg».proof.Proof.Gen.KernelIdeal
import proofs.«415979_j2018634629437_3_alg».proof.Proof.Gen.ReferenceIdeal
import proofs.«415979_j2018634629437_3_alg».proof.Proof.Gen.Pre_finite_inputs
import proofs.«415979_j2018634629437_3_alg».proof.Proof.K.FrameR
import proofs.«415979_j2018634629437_3_alg».proof.Proof.K.Ok
import proofs.«415979_j2018634629437_3_alg».proof.Proof.KI.Frame
import proofs.«415979_j2018634629437_3_alg».proof.Proof.KI.Ok
import proofs.«415979_j2018634629437_3_alg».proof.Proof.KI.Val2
import proofs.«415979_j2018634629437_3_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => conj14 (h c)) (Cert.Kernel.Hand.frameR m (Cert.Kernel.Hand.ok_tbl m) ρ)

theorem frame_ki : Cert.frame_KernelIdeal := fun m ρ _ =>
  (θ_run Cert.KernelIdeal.defs _ _).mono (fun _ h c => conj14 (h c))
    (Cert.KernelIdeal.Hand.frame m (Cert.KernelIdeal.Hand.ok_tbl m) Cert.KernelIdeal.Hand.payLocal2_ideal ρ)

theorem frame_r : Cert.frame_ReferenceIdeal := fun m ρ _ =>
  (θ_run Cert.ReferenceIdeal.defs _ _).mono (fun _ h c => (h c).2.2.2) (Cert.RefRunHand.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
